-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  IdealRules.truncf_extf.Statement Cert.KernelIdeal.S4000x256 .f32 .bf16
  ∧ IdealRules.truncf_extf.Statement Cert.KernelIdeal.S5000x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x32 : Shape := ⟨2, ![100000, 32]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg19 : FVec F S128x128 .f32) (main_arg20 : FVec F S128x16 .f32) (main_arg21 : FVec F S16 .f32) (main_v63 : IVec S_ 1) (main_v67 : IVec S_ 1) : IVec S_ 1 :=
  let main_v68 : IVec S_ 1 := andi main_v63 main_v67
  let main_v69 : FVec F S128x128 .f32 := Host.absf main_arg19
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x16 .f32 := Host.absf main_arg20
  let main_cst_28 : FVec F S_ .f32 := constant S_ .f32 0x7F800000#32
  let main_v75 : FVec F S128x16 .f32 := broadcastInDim S128x16 ![] bcast_S_S128x16 main_cst_28
  let main_v76 : IVec S128x16 1 := cmpf .olt main_v74 main_v75
  let main_c_29 : IVec S_ 1 := constantI S_ 1 1#1
  let main_v77 : IVec S_ 1 := (fun x v => Host.reduce IntOp.andi x v reducesTo_S128x16_S_d0_1 h_S_) main_v76 main_c_29
  let main_v78 : IVec S_ 1 := andi main_v73 main_v77
  let main_v79 : FVec F S16 .f32 := Host.absf main_arg21
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg16 : FVec F S128x128 .f32) (main_arg17 : FVec F S128x128 .f32) (main_arg18 : FVec F S128 .f32) (main_arg19 : FVec F S128x128 .f32) (main_arg20 : FVec F S128x16 .f32) (main_arg21 : FVec F S16 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg16
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg17
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg18
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg19 main_arg20 main_arg21 main_v63 main_v67

def fn_part2 {F : FTy → Type} [FloatOps F] (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x16 .f32) (main_arg21 : FVec F S16 .f32) (main_v33 : IVec S_ 1) : IVec S_ 1 :=
  let main_v34 : FVec F S128 .f32 := Host.absf main_arg12
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg13
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg14
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg15
  let main_cst_18 : FVec F S_ .f32 := constant S_ .f32 0x7F800000#32
  let main_v50 : FVec F S128 .f32 := broadcastInDim S128 ![] bcast_S_S128 main_cst_18
  fn_part3 (F := F) main_arg16 main_arg17 main_arg18 main_arg19 main_arg20 main_arg21 main_v48 main_v49 main_v50

def fn_part1 {F : FTy → Type} [FloatOps F] (main_arg9 : FVec F S32x128 .f32) (main_arg10 : FVec F S128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x16 .f32) (main_arg21 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg9
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg10
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg11
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg12 main_arg13 main_arg14 main_arg15 main_arg16 main_arg17 main_arg18 main_arg19 main_arg20 main_arg21 main_v33

def fn {F : FTy → Type} [FloatOps F] (main_arg0 : FVec F S100000x64 .f32) (main_arg1 : FVec F S100000x32 .f32) (main_arg2 : IVec S2x1600000 32) (main_arg3 : IVec S2x1600000 32) (main_arg4 : IVec S2x1600000 32) (main_arg5 : IVec S100000 32) (main_arg6 : IVec S100000 32) (main_arg7 : FVec F S64x128 .f32) (main_arg8 : FVec F S128 .f32) (main_arg9 : FVec F S32x128 .f32) (main_arg10 : FVec F S128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x16 .f32) (main_arg21 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S64x128 .f32 := Host.absf main_arg7
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg8
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg9 main_arg10 main_arg11 main_arg12 main_arg13 main_arg14 main_arg15 main_arg16 main_arg17 main_arg18 main_arg19 main_arg20 main_arg21 main_v13 main_v16
-- ==== Kernel.lean ====
abbrev S100000x64 : Shape := ⟨2, ![100000, 64]⟩
abbrev S100000x32 : Shape := ⟨2, ![100000, 32]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S128x16 : Shape := ⟨2, ![128, 16]⟩
abbrev S16 : Shape := ⟨1, ![16]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S5000x32 : Shape := ⟨2, ![5000, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S256x128 : Shape := ⟨2, ![256, 128]⟩
abbrev S4000x128 : Shape := ⟨2, ![4000, 128]⟩
abbrev S4000x1 : Shape := ⟨2, ![4000, 1]⟩
abbrev S1x256 : Shape := ⟨2, ![1, 256]⟩
abbrev S4000x256 : Shape := ⟨2, ![4000, 256]⟩
abbrev S256 : Shape := ⟨1, ![256]⟩
abbrev S256x1 : Shape := ⟨2, ![256, 1]⟩
abbrev S5000x1 : Shape := ⟨2, ![5000, 1]⟩
abbrev S5000x256 : Shape := ⟨2, ![5000, 256]⟩
abbrev S1x16 : Shape := ⟨2, ![1, 16]⟩
abbrev S256x16 : Shape := ⟨2, ![256, 16]⟩

abbrev nBuf : Space → Nat
  | .hbm => 115
  | .vmem => 56
  | .smem => 0
  | _ => 0

abbrev bufTy : (tb : Table) → Fin (tcTables nBuf tb) → BufTy
  | .hbm, ⟨0, _⟩ => ⟨S100000x64, .f32⟩
  | .hbm, ⟨1, _⟩ => ⟨S100000x32, .f32⟩
  | .hbm, ⟨2, _⟩ => ⟨S2x1600000, .i32⟩
  | .hbm, ⟨3, _⟩ => ⟨S2x1600000, .i32⟩
  | .hbm, ⟨4, _⟩ => ⟨S2x1600000, .i32⟩
  | .hbm, ⟨5, _⟩ => ⟨S100000, .i32⟩
  | .hbm, ⟨6, _⟩ => ⟨S100000, .i32⟩
  | .hbm, ⟨7, _⟩ => ⟨S64x128, .f32⟩
  | .hbm, ⟨8, _⟩ => ⟨S128, .f32⟩
  | .hbm, ⟨9, _⟩ => ⟨S32x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128x16, .f32⟩
  | .hbm, ⟨21, _⟩ => ⟨S16, .f32⟩
  | .hbm, ⟨22, _⟩ => ⟨S1x128, .f32⟩
  | .hbm, ⟨23, _⟩ => ⟨S100000x128, .f32⟩
  | .hbm, ⟨24, _⟩ => ⟨S100000x128, .bf16⟩
  | .hbm, ⟨25, _⟩ => ⟨S1x128, .f32⟩
  | .hbm, ⟨26, _⟩ => ⟨S100000x128, .f32⟩
  | .hbm, ⟨27, _⟩ => ⟨S100000x128, .bf16⟩
  | .hbm, ⟨28, _⟩ => ⟨S1x1600000, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .bf16⟩
  | .hbm, ⟨39, _⟩ => ⟨S1600000x128, .f32⟩
  | .hbm, ⟨40, _⟩ => ⟨S1x1600000, .i32⟩
  | .hbm, ⟨41, _⟩ => ⟨S1600000, .i32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S_, .f32⟩
  | .hbm, ⟨47, _⟩ => ⟨S1600000x1, .f32⟩
  | .hbm, ⟨48, _⟩ => ⟨S1x1600000, .i32⟩
  | .hbm, ⟨49, _⟩ => ⟨S1600000, .i32⟩
  | .hbm, ⟨50, _⟩ => ⟨S_, .f32⟩
  | .hbm, ⟨51, _⟩ => ⟨S100000x1, .f32⟩
  | .hbm, ⟨52, _⟩ => ⟨S1600000x1, .i32⟩
  | .hbm, ⟨53, _⟩ => ⟨S100000x1, .f32⟩
  | .hbm, ⟨54, _⟩ => ⟨S1x1600000, .i32⟩
  | .hbm, ⟨55, _⟩ => ⟨S1600000, .i32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .bf16⟩
  | .hbm, ⟨65, _⟩ => ⟨S1600000x128, .f32⟩
  | .hbm, ⟨66, _⟩ => ⟨S1x1600000, .i32⟩
  | .hbm, ⟨67, _⟩ => ⟨S1600000, .i32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S_, .f32⟩
  | .hbm, ⟨73, _⟩ => ⟨S1600000x1, .f32⟩
  | .hbm, ⟨74, _⟩ => ⟨S1x1600000, .i32⟩
  | .hbm, ⟨75, _⟩ => ⟨S1600000, .i32⟩
  | .hbm, ⟨76, _⟩ => ⟨S_, .f32⟩
  | .hbm, ⟨77, _⟩ => ⟨S100000x1, .f32⟩
  | .hbm, ⟨78, _⟩ => ⟨S1600000x1, .i32⟩
  | .hbm, ⟨79, _⟩ => ⟨S100000x1, .f32⟩
  | .hbm, ⟨80, _⟩ => ⟨S1x1600000, .i32⟩
  | .hbm, ⟨81, _⟩ => ⟨S1600000, .i32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .bf16⟩
  | .hbm, ⟨91, _⟩ => ⟨S1600000x128, .f32⟩
  | .hbm, ⟨92, _⟩ => ⟨S1x1600000, .i32⟩
  | .hbm, ⟨93, _⟩ => ⟨S1600000, .i32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S_, .f32⟩
  | .hbm, ⟨99, _⟩ => ⟨S1600000x1, .f32⟩
  | .hbm, ⟨100, _⟩ => ⟨S1x1600000, .i32⟩
  | .hbm, ⟨101, _⟩ => ⟨S1600000, .i32⟩
  | .hbm, ⟨102, _⟩ => ⟨S_, .f32⟩
  | .hbm, ⟨103, _⟩ => ⟨S100000x1, .f32⟩
  | .hbm, ⟨104, _⟩ => ⟨S1600000x1, .i32⟩
  | .hbm, ⟨105, _⟩ => ⟨S100000x1, .f32⟩
  | .hbm, ⟨106, _⟩ => ⟨S100000x1, .i32⟩
  | .hbm, ⟨107, _⟩ => ⟨S1x128, .f32⟩
  | .hbm, ⟨108, _⟩ => ⟨S1x128, .f32⟩
  | .hbm, ⟨109, _⟩ => ⟨S256x128, .f32⟩
  | .hbm, ⟨110, _⟩ => ⟨S100000x1, .i32⟩
  | .hbm, ⟨111, _⟩ => ⟨S1x128, .f32⟩
  | .hbm, ⟨112, _⟩ => ⟨S256x128, .f32⟩
  | .hbm, ⟨113, _⟩ => ⟨S1x16, .f32⟩
  | .hbm, ⟨114, _⟩ => ⟨S256x16, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .bf16⟩
  | .local _ .vmem, ⟨7, _⟩ => ⟨S5000x128, .bf16⟩
  | .local _ .vmem, ⟨8, _⟩ => ⟨S5000x32, .f32⟩
  | .local _ .vmem, ⟨9, _⟩ => ⟨S5000x32, .f32⟩
  | .local _ .vmem, ⟨10, _⟩ => ⟨S32x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .bf16⟩
  | .local _ .vmem, ⟨15, _⟩ => ⟨S5000x128, .bf16⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S4000x1, .f32⟩
  | .local _ .vmem, ⟨23, _⟩ => ⟨S4000x1, .f32⟩
  | .local _ .vmem, ⟨24, _⟩ => ⟨S4000x128, .f32⟩
  | .local _ .vmem, ⟨25, _⟩ => ⟨S4000x128, .f32⟩
  | .local _ .vmem, ⟨26, _⟩ => ⟨S4000x1, .i32⟩
  | .local _ .vmem, ⟨27, _⟩ => ⟨S4000x1, .i32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S128x128, .f32⟩
  | .local _ .vmem, ⟨34, _⟩ => ⟨S256x128, .f32⟩
  | .local _ .vmem, ⟨35, _⟩ => ⟨S256x128, .f32⟩
  | .local _ .vmem, ⟨36, _⟩ => ⟨S1x256, .f32⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S5000x128, .f32⟩
  | .local _ .vmem, ⟨42, _⟩ => ⟨S5000x128, .f32⟩
  | .local _ .vmem, ⟨43, _⟩ => ⟨S5000x1, .i32⟩
  | .local _ .vmem, ⟨44, _⟩ => ⟨S5000x1, .i32⟩
  | .local _ .vmem, ⟨45, _⟩ => ⟨S128x128, .f32⟩
  | .local _ .vmem, ⟨46, _⟩ => ⟨S1x128, .f32⟩
  | .local _ .vmem, ⟨47, _⟩ => ⟨S128x128, .f32⟩
  | .local _ .vmem, ⟨48, _⟩ => ⟨S256x128, .f32⟩
  | .local _ .vmem, ⟨49, _⟩ => ⟨S256x128, .f32⟩
  | .local _ .vmem, ⟨50, _⟩ => ⟨S1x256, .f32⟩
  | .local _ .vmem, ⟨51, _⟩ => ⟨S256x128, .f32⟩
  | .local _ .vmem, ⟨52, _⟩ => ⟨S256x128, .f32⟩
  | .local _ .vmem, ⟨53, _⟩ => ⟨S128x16, .f32⟩
  | .local _ .vmem, ⟨54, _⟩ => ⟨S1x16, .f32⟩
  | .local _ .vmem, ⟨55, _⟩ => ⟨S256x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1_0 : Ref sig .tc := ⟨.hbm, 23, rfl⟩
abbrev main_v1_1 : Ref sig .tc := ⟨.hbm, 24, rfl⟩
abbrev main_v2 : Ref sig .tc := ⟨.hbm, 25, rfl⟩
abbrev main_v3_0 : Ref sig .tc := ⟨.hbm, 26, rfl⟩
abbrev main_v3_1 : Ref sig .tc := ⟨.hbm, 27, rfl⟩
abbrev main_v4 : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_3 : Ref sig .tc := ⟨.hbm, 56, rfl⟩
abbrev main_v27 : Ref sig .tc := ⟨.hbm, 57, rfl⟩
abbrev main_v28 : Ref sig .tc := ⟨.hbm, 58, rfl⟩
abbrev main_c_4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_6 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_8 : Ref sig .tc := ⟨.hbm, 82, rfl⟩
abbrev main_v48 : Ref sig .tc := ⟨.hbm, 83, rfl⟩
abbrev main_v49 : Ref sig .tc := ⟨.hbm, 84, rfl⟩
abbrev main_c_9 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_11 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_12 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg11_0 : Ref sig .tc := ⟨.vmem, 33, rfl⟩
abbrev cc2_stg12_0 : Ref sig .tc := ⟨.vmem, 34, rfl⟩
abbrev cc2_scratch0 : Ref sig .tc := ⟨.vmem, 35, rfl⟩
abbrev cc2_scratch1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_scratch0 : Ref sig .tc := ⟨.vmem, 49, rfl⟩
abbrev cc3_scratch1 : Ref sig .tc := ⟨.vmem, 50, rfl⟩
abbrev cc4_stg0_0 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg3_0 : Ref sig .tc := ⟨.vmem, 54, rfl⟩
abbrev cc4_stg4_0 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem11_0 : DmaSem sig := 33
abbrev cc2_sem12_0 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem5_0 : DmaSem sig := 44
abbrev cc3_sem6_0 : DmaSem sig := 45
abbrev cc3_sem7_0 : DmaSem sig := 46
abbrev cc4_sem0_0 : DmaSem sig := 47
abbrev cc4_sem1_0 : DmaSem sig := 48
abbrev cc4_sem2_0 : DmaSem sig := 49
abbrev cc4_sem3_0 : DmaSem sig := 50
abbrev cc4_sem4_0 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v77 : BitVec 1 := Scalar.cmpi .eq arg0 c24_i32
  let v78 : BitVec 32 := Scalar.extui v77
  let c0_i32_42 : BitVec 32 := 0#32
  let v79 : BitVec 1 := Scalar.cmpi .ne v78 c0_i32_42
  v79

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S256x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v54 : BitVec 1 := Scalar.cmpi .eq arg0 c19_i32
  let v55 : BitVec 32 := Scalar.extui v54
  let c0_i32_28 : BitVec 32 := 0#32
  let v56 : BitVec 1 := Scalar.cmpi .ne v55 c0_i32_28
  v56

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  inb_S5000x32_S5000x32_0_0 : ∀ a, (![0, 0] : Fin 2 → Nat) a + S5000x32.size a ≤ S5000x32.size a
  h_S5000x32 : 0 < S5000x32.numel
  inb_S32x128_S32x128_0_0 : ∀ a, (![0, 0] : Fin 2 → Nat) a + S32x128.size a ≤ S32x128.size a
  h_S32x128 : 0 < S32x128.numel
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  shapeCasts_S100000_S100000x1 : S100000.ShapeCasts S100000x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  broadcasts_S1x128_S4000x128 : S1x128.Broadcasts S4000x128
  iota_S1x256_d1_w32 : S1x256.Iotas .tc 32 [1]
  broadcasts_S4000x1_S4000x256 : S4000x1.Broadcasts S4000x256
  broadcasts_S1x256_S4000x256 : S1x256.Broadcasts S4000x256
  natLt_1_32 : 1 < 32
  reduces_S4000x256_S256 : S4000x256.Reduces [0] S256
  shapeCasts_S256_S1x256 : S256.ShapeCasts S1x256
  transposes_S1x256_p1_0_S256x1 : S1x256.Transposes [1, 0] S256x1
  broadcasts_S256x1_S256x128 : S256x1.Broadcasts S256x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S5000x1_S5000x256 : S5000x1.Broadcasts S5000x256
  broadcasts_S1x256_S5000x256 : S1x256.Broadcasts S5000x256
  reduces_S5000x256_S256 : S5000x256.Reduces [0] S256
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S256x16_S256x16_0_0 : ∀ a, (![0, 0] : Fin 2 → Nat) a + S256x16.size a ≤ S256x16.size a
  h_S256x16 : 0 < S256x16.numel
  dot_S5000x64_S64x128_S5000x128_1_0_0_1_n_n_wf : DotDims.WF S5000x64 S64x128 S5000x128 [1] [0] [0] [1] [] []
  dot_S5000x32_S32x128_S5000x128_1_0_0_1_n_n_wf : DotDims.WF S5000x32 S32x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S4000x128_S128x128_S4000x128_1_0_0_1_n_n_wf : DotDims.WF S4000x128 S128x128 S4000x128 [1] [0] [0] [1] [] []
  dot_S4000x256_S4000x128_S256x128_0_0_1_1_n_n_wf : DotDims.WF S4000x256 S4000x128 S256x128 [0] [0] [1] [1] [] []
  dot_S5000x128_S128x128_S5000x128_1_0_0_1_n_n_wf : DotDims.WF S5000x128 S128x128 S5000x128 [1] [0] [0] [1] [] []
  dot_S5000x256_S5000x128_S256x128_0_0_1_1_n_n_wf : DotDims.WF S5000x256 S5000x128 S256x128 [0] [0] [1] [1] [] []
  dot_S256x128_S128x16_S256x16_1_0_0_1_n_n_wf : DotDims.WF S256x128 S128x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S100000x1.size a
  hwx2_3 : ∀ i : grid2.Coords, EltTy.bits .f32 = 32 ∨ (Rect.block (s := S100000x1) S4000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .f32 = 32 ∨ (Rect.block (s := S100000x128) S4000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S100000x1.size a
  hwx2_5 : ∀ i : grid2.Coords, EltTy.bits .i32 = 32 ∨ (Rect.block (s := S100000x1) S4000x1.size (cc2_transform_5 i) (hinb2_5 i)).WholeWords (EltTy.packing .i32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S256x128.size a ≤ S256x128.size a
  hwx2_12 : ∀ i : grid2.Coords, EltTy.bits .f32 = 32 ∨ (Rect.block (s := S256x128) S256x128.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .i32 = 32 ∨ (Rect.block (s := S100000x1) S5000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x128.size a ≤ S256x128.size a
  hwx3_7 : ∀ i : grid3.Coords, EltTy.bits .f32 = 32 ∨ (Rect.block (s := S256x128) S256x128.size (cc3_transform_7 i) (hinb3_7 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x16.size a ≤ S128x16.size a
  hwx4_2 : ∀ i : grid4.Coords, EltTy.bits .f32 = 32 ∨ (Rect.block (s := S128x16) S128x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x16.size a ≤ S1x16.size a
  hwx4_3 : ∀ i : grid4.Coords, EltTy.bits .f32 = 32 ∨ (Rect.block (s := S1x16) S1x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x16.size a ≤ S256x16.size a
  hwx4_4 : ∀ i : grid4.Coords, EltTy.bits .f32 = 32 ∨ (Rect.block (s := S256x16) S256x16.size (cc4_transform_4 i) (hinb4_4 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x256_S4000x128_S256x128_0_0_1_1_n_n : DotDims S4000x256 S4000x128 S256x128 where
  lhsContracting := [0]
  rhsContracting := [0]
  lhsNonContracting := [1]
  rhsNonContracting := [1]
  lhsBatch := []
  rhsBatch := []
  wf := dot_S4000x256_S4000x128_S256x128_0_0_1_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S256x128_S128x16_S256x16_1_0_0_1_n_n : DotDims S256x128 S128x16 S256x16 where
  lhsContracting := [1]
  rhsContracting := [0]
  lhsNonContracting := [0]
  rhsNonContracting := [1]
  lhsBatch := []
  rhsBatch := []
  wf := dot_S256x128_S128x16_S256x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1_0) S4000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v67) S4000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v68) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v69) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg16) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg19) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v70) S256x128.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev idle2 : Fin 13 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k2_cond2 i == 1#1) | ⟨_ + 13, h⟩ => absurd h (Nat.not_lt.2 (Nat.le_add_left _ _))

abbrev win3_0 : Pipeline.Window sig grid3 :=
  Pipeline.Window.ofSpec (Memref.whole main_v18) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3_0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v71) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S256x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

abbrev win4_0 : Pipeline.Window sig grid4 :=
  Pipeline.Window.ofSpec (Memref.whole main_v70) S256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v73) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg20) S128x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S256x16.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x64 : Shape := ⟨2, ![100000, 64]⟩
abbrev S100000x32 : Shape := ⟨2, ![100000, 32]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S128x16 : Shape := ⟨2, ![128, 16]⟩
abbrev S16 : Shape := ⟨1, ![16]⟩
abbrev S100000x128 : Shape := ⟨2, ![100000, 128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S256x128 : Shape := ⟨2, ![256, 128]⟩
abbrev S256x1 : Shape := ⟨2, ![256, 1]⟩
abbrev S256x16 : Shape := ⟨2, ![256, 16]⟩
abbrev S1x16 : Shape := ⟨2, ![1, 16]⟩

abbrev nBuf : Space → Nat
  | .hbm => 186
  | .vmem => 0
  | .smem => 0
  | _ => 0

abbrev hbmTy0_0 (i : Nat) : BufTy := match i % 128 with
  | 0 => ⟨S100000x64, .f32⟩
  | 1 => ⟨S100000x32, .f32⟩
  | 2 => ⟨S2x1600000, .i32⟩
  | 3 => ⟨S2x1600000, .i32⟩
  | 4 => ⟨S2x1600000, .i32⟩
  | 5 => ⟨S100000, .i32⟩
  | 6 => ⟨S100000, .i32⟩
  | 7 => ⟨S64x128, .f32⟩
  | 8 => ⟨S128, .f32⟩
  | 9 => ⟨S32x128, .f32⟩
  | 10 => ⟨S128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x16, .f32⟩
  | 21 => ⟨S16, .f32⟩
  | 22 => ⟨S100000x128, .f32⟩
  | 23 => ⟨S1x128, .f32⟩
  | 24 => ⟨S100000x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S1x1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S1x1600000, .i32⟩
  | 42 => ⟨S1600000, .i32⟩
  | 43 => ⟨S_, .f32⟩
  | 44 => ⟨S100000x128, .f32⟩
  | 45 => ⟨S1600000x1, .i32⟩
  | 46 => ⟨S100000x128, .f32⟩
  | 47 => ⟨S_, .f32⟩
  | 48 => ⟨S1600000x1, .f32⟩
  | 49 => ⟨S1x1600000, .i32⟩
  | 50 => ⟨S1600000, .i32⟩
  | 51 => ⟨S_, .f32⟩
  | 52 => ⟨S100000x1, .f32⟩
  | 53 => ⟨S1600000x1, .i32⟩
  | 54 => ⟨S100000x1, .f32⟩
  | 55 => ⟨S_, .f32⟩
  | 56 => ⟨S100000x1, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S100000x128, .f32⟩
  | 66 => ⟨S1x1600000, .i32⟩
  | 67 => ⟨S1600000, .i32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S1x1600000, .i32⟩
  | 78 => ⟨S1600000, .i32⟩
  | 79 => ⟨S_, .f32⟩
  | 80 => ⟨S100000x128, .f32⟩
  | 81 => ⟨S1600000x1, .i32⟩
  | 82 => ⟨S100000x128, .f32⟩
  | 83 => ⟨S_, .f32⟩
  | 84 => ⟨S1600000x1, .f32⟩
  | 85 => ⟨S1x1600000, .i32⟩
  | 86 => ⟨S1600000, .i32⟩
  | 87 => ⟨S_, .f32⟩
  | 88 => ⟨S100000x1, .f32⟩
  | 89 => ⟨S1600000x1, .i32⟩
  | 90 => ⟨S100000x1, .f32⟩
  | 91 => ⟨S_, .f32⟩
  | 92 => ⟨S100000x1, .f32⟩
  | 93 => ⟨S100000x1, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S100000x128, .f32⟩
  | 101 => ⟨S100000x128, .f32⟩
  | 102 => ⟨S1x1600000, .i32⟩
  | 103 => ⟨S1600000, .i32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1x1600000, .i32⟩
  | 114 => ⟨S1600000, .i32⟩
  | 115 => ⟨S_, .f32⟩
  | 116 => ⟨S100000x128, .f32⟩
  | 117 => ⟨S1600000x1, .i32⟩
  | 118 => ⟨S100000x128, .f32⟩
  | 119 => ⟨S_, .f32⟩
  | 120 => ⟨S1600000x1, .f32⟩
  | 121 => ⟨S1x1600000, .i32⟩
  | 122 => ⟨S1600000, .i32⟩
  | 123 => ⟨S_, .f32⟩
  | 124 => ⟨S100000x1, .f32⟩
  | 125 => ⟨S1600000x1, .i32⟩
  | 126 => ⟨S100000x1, .f32⟩
  | 127 => ⟨S_, .f32⟩
  | _ => ⟨S100000x64, .f32⟩

abbrev hbmTy0_1 (i : Nat) : BufTy := match i % 128 with
  | 0 => ⟨S100000x1, .f32⟩
  | 1 => ⟨S100000x1, .f32⟩
  | 2 => ⟨S100000x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S100000x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S_, .f32⟩
  | 18 => ⟨S256x128, .f32⟩
  | 19 => ⟨S100000x1, .i32⟩
  | 20 => ⟨S256x128, .f32⟩
  | 21 => ⟨S_, .f32⟩
  | 22 => ⟨S100000x1, .f32⟩
  | 23 => ⟨S_, .f32⟩
  | 24 => ⟨S256x1, .f32⟩
  | 25 => ⟨S100000x1, .i32⟩
  | 26 => ⟨S256x1, .f32⟩
  | 27 => ⟨S_, .f32⟩
  | 28 => ⟨S256x1, .f32⟩
  | 29 => ⟨S256x1, .f32⟩
  | 30 => ⟨S256x128, .f32⟩
  | 31 => ⟨S256x128, .f32⟩
  | 32 => ⟨S_, .f32⟩
  | 33 => ⟨S100000x128, .f32⟩
  | 34 => ⟨S100000x128, .f32⟩
  | 35 => ⟨S_, .f32⟩
  | 36 => ⟨S256x128, .f32⟩
  | 37 => ⟨S100000x1, .i32⟩
  | 38 => ⟨S256x128, .f32⟩
  | 39 => ⟨S_, .f32⟩
  | 40 => ⟨S100000x1, .f32⟩
  | 41 => ⟨S_, .f32⟩
  | 42 => ⟨S256x1, .f32⟩
  | 43 => ⟨S100000x1, .i32⟩
  | 44 => ⟨S256x1, .f32⟩
  | 45 => ⟨S_, .f32⟩
  | 46 => ⟨S256x1, .f32⟩
  | 47 => ⟨S256x1, .f32⟩
  | 48 => ⟨S256x128, .f32⟩
  | 49 => ⟨S256x128, .f32⟩
  | 50 => ⟨S256x128, .f32⟩
  | 51 => ⟨S_, .f32⟩
  | 52 => ⟨S256x128, .f32⟩
  | 53 => ⟨S256x128, .f32⟩
  | 54 => ⟨S256x16, .f32⟩
  | 55 => ⟨S1x16, .f32⟩
  | 56 => ⟨S256x16, .f32⟩
  | 57 => ⟨S256x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_4 : Ref sig .tc := ⟨.hbm, 68, rfl⟩
abbrev main_v40 : Ref sig .tc := ⟨.hbm, 69, rfl⟩
abbrev main_v41 : Ref sig .tc := ⟨.hbm, 70, rfl⟩
abbrev main_c_5 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_7 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_10 : Ref sig .tc := ⟨.hbm, 104, rfl⟩
abbrev main_v70 : Ref sig .tc := ⟨.hbm, 105, rfl⟩
abbrev main_v71 : Ref sig .tc := ⟨.hbm, 106, rfl⟩
abbrev main_c_11 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_12 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_13 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_14 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_15 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_16 : Ref sig .tc := ⟨.hbm, 139, rfl⟩
abbrev main_v99 : Ref sig .tc := ⟨.hbm, 140, rfl⟩
abbrev main_v100 : Ref sig .tc := ⟨.hbm, 141, rfl⟩
abbrev main_call0_cst : Ref sig .tc := ⟨.hbm, 142, rfl⟩
abbrev main_call0_v0 : Ref sig .tc := ⟨.hbm, 143, rfl⟩
abbrev main_v101 : Ref sig .tc := ⟨.hbm, 144, rfl⟩
abbrev main_cst_17 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_18 : Ref sig .tc := ⟨.hbm, 149, rfl⟩
abbrev main_v105 : Ref sig .tc := ⟨.hbm, 150, rfl⟩
abbrev main_cst_19 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_20 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_call1_cst : Ref sig .tc := ⟨.hbm, 160, rfl⟩
abbrev main_call1_v0 : Ref sig .tc := ⟨.hbm, 161, rfl⟩
abbrev main_v113 : Ref sig .tc := ⟨.hbm, 162, rfl⟩
abbrev main_cst_21 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_22 : Ref sig .tc := ⟨.hbm, 167, rfl⟩
abbrev main_v117 : Ref sig .tc := ⟨.hbm, 168, rfl⟩
abbrev main_cst_23 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_24 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_25 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  dot_S100000x64_S64x128_S100000x128_1_0_0_1_n_n_wf : DotDims.WF S100000x64 S64x128 S100000x128 [1] [0] [0] [1] [] []
  dot_S100000x32_S32x128_S100000x128_1_0_0_1_n_n_wf : DotDims.WF S100000x32 S32x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256x1_S100000x1_S100000x1_1_0_0_1_wf : ScatterDims.WF S256x1 S100000x1 S100000x1 [1] [0] [0] 1
  dot_S256x128_S128x16_S256x16_1_0_0_1_n_n_wf : DotDims.WF S256x128 S128x16 S256x16 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x128_S128x16_S256x16_1_0_0_1_n_n : DotDims S256x128 S128x16 S256x16 where
  lhsContracting := [1]
  rhsContracting := [0]
  lhsNonContracting := [0]
  rhsNonContracting := [1]
  lhsBatch := []
  rhsBatch := []
  wf := dot_S256x128_S128x16_S256x16_1_0_0_1_n_n_wf

class Facts : Prop extends Facts₀ where

variable [Facts]
-- ==== Proof.KI.Dat0.lean ====
import proofs.«420848_j14422500180474_3_alg».proof.Proof.Gen.KernelIdeal.Launch
import proofs.«420848_j14422500180474_3_alg».proof.Proof.Gen.KernelIdeal.Skeleton
import proofs.«420848_j14422500180474_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x64 := Rect.unit (s := S5000x64) ![0, 0] S5000x64.size inb_S5000x64_S5000x64_0_0

abbrev r0_1 : Rect S64x128 := Rect.unit (s := S64x128) ![0, 0] S64x128.size inb_S64x128_S64x128_0_0

abbrev r0_2 : Rect S1x128 := Rect.unit (s := S1x128) ![0, 0] S1x128.size inb_S1x128_S1x128_0_0

abbrev r0_3 : Rect S5000x128 := Rect.unit (s := S5000x128) ![0, 0] S5000x128.size inb_S5000x128_S5000x128_0_0

def out0_3 (x0 : Vec F S5000x64 .f32) (x1 : Vec F S64x128 .f32) (x2 : Vec F S1x128 .f32) : Vec F S5000x128 .f32 :=
  View.canon [⟨r0_3, k0_pay1 (View.ld x0 r0_0) (View.ld x1 r0_1) (View.ld x2 r0_2)⟩]

def out0_4 (x0 : Vec F S5000x64 .f32) (x1 : Vec F S64x128 .f32) (x2 : Vec F S1x128 .f32) : Vec F S5000x128 .bf16 :=
  View.canon [⟨r0_3, k0_pay2 (View.ld x0 r0_0) (View.ld x1 r0_1) (View.ld x2 r0_2)⟩]

theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

theorem cover0_4 (p0 : Vec F S5000x128 .bf16) (y : S5000x128.Idx) :
    ∃ pc ∈ ([⟨r0_3, p0⟩] : List (View.Piece (Elt F) S5000x128 .bf16)), y ∈ pc.1.set :=
  View.cover_of_tiled [⟨r0_3, p0⟩] S5000x128.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = iblk0 V c 2 t := by dsimp only [dat0]

theorem after0_3 (c : Dev nD) (t : Fin cfg0.N) :
    (dat0 V c).after 3 t = out0_3 (iblk0 V c 0 t) (iblk0 V c 1 t) (iblk0 V c 2 t) := by dsimp only [dat0]

theorem after0_4 (c : Dev nD) (t : Fin cfg0.N) :
    (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

end Cert.KernelIdeal.Hand

end
-- ==== Proof.KI.Dat2.lean ====
import proofs.«420848_j14422500180474_3_alg».proof.Proof.Gen.KernelIdeal.Launch
import proofs.«420848_j14422500180474_3_alg».proof.Proof.Gen.KernelIdeal.Skeleton
import proofs.«420848_j14422500180474_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S4000x128 := Rect.unit (s := S4000x128) ![0, 0] S4000x128.size inb_S4000x128_S4000x128_0_0

abbrev r2_k : Rect S4000x1 := Rect.unit (s := S4000x1) ![0, 0] S4000x1.size inb_S4000x1_S4000x1_0_0

abbrev r2_w : Rect S128x128 := Rect.unit (s := S128x128) ![0, 0] S128x128.size inb_S128x128_S128x128_0_0

abbrev r2_b : Rect S1x128 := Rect.unit (s := S1x128) ![0, 0] S1x128.size inb_S1x128_S1x128_0_0

abbrev r2_s : Rect S256x128 := Rect.unit (s := S256x128) ![0, 0] S256x128.size inb_S256x128_S256x128_0_0

abbrev r2_c : Rect S1x256 := Rect.unit (s := S1x256) ![0, 0] S1x256.size inb_S1x256_S1x256_0_0

theorem hz2 : (![0, 0] : Fin 2 → ℕ) = fun _ => 0 := by
  funext a; match a with | ⟨0, _⟩ => rfl | ⟨1, _⟩ => rfl

def sReset2 : Vec F S256x128 .f32 := View.canon [⟨r2_s, k2_pay3 (F := F)⟩]

def cReset2 : Vec F S1x256 .f32 := View.canon [⟨r2_c, k2_pay4 (F := F)⟩]

def sStep2 (x0 x1 : Vec F S4000x128 .f32) (x2 x3 : Vec F S4000x1 .f32) (x4 : Vec F S4000x128 .f32) (x5 : Vec F S4000x1 .i32)
    (x6 x7 : Vec F S128x128 .f32) (x8 x9 : Vec F S1x128 .f32) (x10 x11 : Vec F S128x128 .f32) (s : Vec F S256x128 .f32) : Vec F S256x128 .f32 :=
  View.canon [⟨r2_s, k2_pay10 (k2_pay5 (View.ld x4 r2_x))
    (k2_pay6 (View.ld x4 r2_x) (View.ld x2 r2_k) (View.ld x0 r2_x) (View.ld x6 r2_w) (View.ld x10 r2_w) (View.ld x8 r2_b))
    (k2_pay7 (View.ld x1 r2_x)) (k2_pay8 (View.ld x3 r2_k)) (View.ld x7 r2_w) (View.ld x11 r2_w) (View.ld x9 r2_b) (View.ld x5 r2_k)
    (View.ld s r2_s)⟩]

def cStep2 (x5 : Vec F S4000x1 .i32) (n : Vec F S1x256 .f32) : Vec F S1x256 .f32 :=
  View.canon [⟨r2_c, k2_pay1 (k2_pay11 (View.ld x5 r2_k) (View.ld n r2_c))⟩]

def pt2 (n : ℕ) : Fin cfg2.N := ⟨min n 24, by rw [show cfg2.N = 25 from N_2]; omega⟩

theorem pt2_of_lt (n : ℕ) (hn : n < cfg2.N) : pt2 n = ⟨n, hn⟩ := by
  have h : n < 25 := lt_of_lt_of_eq hn (show cfg2.N = 25 from N_2)
  exact Fin.ext (by show min n 24 = n; omega)

def sAcc2 (c : Dev nD) : ℕ → Vec F S256x128 .f32
  | 0 => sReset2
  | n + 1 => sStep2 (iblk2 V c 0 (pt2 n)) (iblk2 V c 1 (pt2 n)) (iblk2 V c 2 (pt2 n)) (iblk2 V c 3 (pt2 n)) (iblk2 V c 4 (pt2 n))
      (iblk2 V c 5 (pt2 n)) (iblk2 V c 6 (pt2 n)) (iblk2 V c 7 (pt2 n)) (iblk2 V c 8 (pt2 n)) (iblk2 V c 9 (pt2 n))
      (iblk2 V c 10 (pt2 n)) (iblk2 V c 11 (pt2 n)) (sAcc2 c n)

def cAcc2 (c : Dev nD) : ℕ → Vec F S1x256 .f32
  | 0 => cReset2
  | n + 1 => cStep2 (iblk2 V c 5 (pt2 n)) (cAcc2 c n)

theorem sAcc2_zero (c : Dev nD) : sAcc2 V c 0 = sReset2 := rfl

theorem cAcc2_zero (c : Dev nD) : cAcc2 V c 0 = cReset2 := rfl

theorem sAcc2_succ (c : Dev nD) (n : ℕ) (hn : n < cfg2.N) :
    sAcc2 V c (n + 1) = sStep2 (iblk2 V c 0 ⟨n, hn⟩) (iblk2 V c 1 ⟨n, hn⟩) (iblk2 V c 2 ⟨n, hn⟩) (iblk2 V c 3 ⟨n, hn⟩) (iblk2 V c 4 ⟨n, hn⟩)
      (iblk2 V c 5 ⟨n, hn⟩) (iblk2 V c 6 ⟨n, hn⟩) (iblk2 V c 7 ⟨n, hn⟩) (iblk2 V c 8 ⟨n, hn⟩) (iblk2 V c 9 ⟨n, hn⟩)
      (iblk2 V c 10 ⟨n, hn⟩) (iblk2 V c 11 ⟨n, hn⟩) (sAcc2 V c n) := by
  rw [← pt2_of_lt n hn]; rfl

theorem cAcc2_succ (c : Dev nD) (n : ℕ) (hn : n < cfg2.N) :
    cAcc2 V c (n + 1) = cStep2 (iblk2 V c 5 ⟨n, hn⟩) (cAcc2 V c n) := by
  rw [← pt2_of_lt n hn]; rfl

def out2_12 (n : Vec F S1x256 .f32) (s : Vec F S256x128 .f32) : Vec F S256x128 .f32 :=
  View.canon [⟨r2_s, k2_pay2 (View.ld n r2_c) (View.ld s r2_s)⟩]

theorem cover2_s_cons (p0 : Vec F S256x128 .f32) (L : List (View.Piece (Elt F) S256x128 .f32)) (y : S256x128.Idx) :
    ∃ pc ∈ ((⟨r2_s, p0⟩ : View.Piece (Elt F) S256x128 .f32) :: L), y ∈ pc.1.set :=
  ⟨_, List.mem_cons_self .., View.mem_set_unit_zero (S := S256x128) hz2 inb_S256x128_S256x128_0_0 y⟩

theorem cover2_c_cons (p0 : Vec F S1x256 .f32) (L : List (View.Piece (Elt F) S1x256 .f32)) (y : S1x256.Idx) :
    ∃ pc ∈ ((⟨r2_c, p0⟩ : View.Piece (Elt F) S1x256 .f32) :: L), y ∈ pc.1.set :=
  ⟨_, List.mem_cons_self .., View.mem_set_unit_zero (S := S1x256) hz2 inb_S1x256_S1x256_0_0 y⟩

theorem sReset2_eq : sReset2 (F := F) = k2_pay3 := View.canon_unit_zero (S := S256x128) hz2 _ _

theorem cReset2_eq : cReset2 (F := F) = k2_pay4 := View.canon_unit_zero (S := S1x256) hz2 _ _

theorem sStep2_eq (x0 x1 : Vec F S4000x128 .f32) (x2 x3 : Vec F S4000x1 .f32) (x4 : Vec F S4000x128 .f32) (x5 : Vec F S4000x1 .i32)
    (x6 x7 : Vec F S128x128 .f32) (x8 x9 : Vec F S1x128 .f32) (x10 x11 : Vec F S128x128 .f32) (s : Vec F S256x128 .f32) :
    sStep2 x0 x1 x2 x3 x4 x5 x6 x7 x8 x9 x10 x11 s
      = k2_pay10 (k2_pay5 x4) (k2_pay6 x4 x2 x0 x6 x10 x8) (k2_pay7 x1) (k2_pay8 x3) x7 x11 x9 x5 s := by
  unfold sStep2
  rw [View.canon_unit_zero (S := S256x128) hz2]
  simp only [View.ld_unit_zero (S := S4000x128) hz2, View.ld_unit_zero (S := S4000x1) hz2, View.ld_unit_zero (S := S128x128) hz2,
    View.ld_unit_zero (S := S1x128) hz2, View.ld_unit_zero (S := S256x128) hz2]

theorem cStep2_eq (x5 : Vec F S4000x1 .i32) (n : Vec F S1x256 .f32) : cStep2 x5 n = k2_pay1 (k2_pay11 x5 n) := by
  unfold cStep2
  rw [View.canon_unit_zero (S := S1x256) hz2]
  simp only [View.ld_unit_zero (S := S4000x1) hz2, View.ld_unit_zero (S := S1x256) hz2]

theorem out2_12_eq (n : Vec F S1x256 .f32) (s : Vec F S256x128 .f32) : out2_12 n s = k2_pay2 n s := by
  unfold out2_12
  rw [View.canon_unit_zero (S := S256x128) hz2]
  simp only [View.ld_unit_zero (S := S1x256) hz2, View.ld_unit_zero (S := S256x128) hz2]

abbrev scM2_0 : Memref sig .tc .vmem S256x128 .f32 := Memref.whole cc2_scratch0

abbrev scM2_1 : Memref sig .tc .vmem S1x256 .f32 := Memref.whole cc2_scratch1

def Phi2N (c : Dev nD) : ℕ → sProp 𝕄
  | 0 => iprop(iprop((∃ d, owns (c : Thread nD τ) scM2_0 fullShare d) ∗ (∃ d, owns (c : Thread nD τ) scM2_1 fullShare d))
      ∗ Pipeline.scopedRestBut (Ix := Unit) (Name := ℕ) (U := UR sig nD τ) (Lvl := ℕ) (Val := Elt F) spec2 c [cc2_scratch0, cc2_scratch1]
      ∗ (∃ r, prngReg c r))
  | n + 1 => iprop(iprop(owns (c : Thread nD τ) scM2_0 fullShare (sAcc2 V c (n + 1)) ∗ owns (c : Thread nD τ) scM2_1 fullShare (cAcc2 V c (n + 1)))
      ∗ Pipeline.scopedRestBut (Ix := Unit) (Name := ℕ) (U := UR sig nD τ) (Lvl := ℕ) (Val := Elt F) spec2 c [cc2_scratch0, cc2_scratch1]
      ∗ (∃ r, prngReg c r))

def Phi2 (c : Dev nD) (t : Fin (cfg2.N + 1)) : sProp 𝕄 := Phi2N V c t.val

theorem Phi2N_zero (c : Dev nD) : Phi2N V c 0 = iprop(iprop((∃ d, owns (c : Thread nD τ) scM2_0 fullShare d) ∗ (∃ d, owns (c : Thread nD τ) scM2_1 fullShare d))
      ∗ Pipeline.scopedRestBut (Ix := Unit) (Name := ℕ) (U := UR sig nD τ) (Lvl := ℕ) (Val := Elt F) spec2 c [cc2_scratch0, cc2_scratch1]
      ∗ (∃ r, prngReg c r)) := rfl

theorem Phi2N_succ (c : Dev nD) (n : ℕ) : Phi2N V c (n + 1) = iprop(iprop(owns (c : Thread nD τ) scM2_0 fullShare (sAcc2 V c (n + 1)) ∗ owns (c : Thread nD τ) scM2_1 fullShare (cAcc2 V c (n + 1)))
      ∗ Pipeline.scopedRestBut (Ix := Unit) (Name := ℕ) (U := UR sig nD τ) (Lvl := ℕ) (Val := Elt F) spec2 c [cc2_scratch0, cc2_scratch1]
      ∗ (∃ r, prngReg c r)) := rfl

theorem Phi2N_pos (c : Dev nD) (n : ℕ) (hn : n ≠ 0) : Phi2N V c n = iprop(iprop(owns (c : Thread nD τ) scM2_0 fullShare (sAcc2 V c n) ∗ owns (c : Thread nD τ) scM2_1 fullShare (cAcc2 V c n))
      ∗ Pipeline.scopedRestBut (Ix := Unit) (Name := ℕ) (U := UR sig nD τ) (Lvl := ℕ) (Val := Elt F) spec2 c [cc2_scratch0, cc2_scratch1]
      ∗ (∃ r, prngReg c r)) := by
  cases n with
  | zero => exact absurd rfl hn
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (cAcc2 V c (t.val + 1)) (sAcc2 V c (t.val + 1))
  Φ := Phi2 V c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = iblk2 V c 2 t := by dsimp only [dat2]

theorem after2_3 (c : Dev nD) (t : Fin cfg2.N) : (dat2 V c).after 3 t = iblk2 V c 3 t := by dsimp only [dat2]

theorem after2_4 (c : Dev nD) (t : Fin cfg2.N) : (dat2 V c).after 4 t = iblk2 V c 4 t := by dsimp only [dat2]

theorem after2_5 (c : Dev nD) (t : Fin cfg2.N) : (dat2 V c).after 5 t = iblk2 V c 5 t := by dsimp only [dat2]

theorem after2_6 (c : Dev nD) (t : Fin cfg2.N) : (dat2 V c).after 6 t = iblk2 V c 6 t := by dsimp only [dat2]

theorem after2_7 (c : Dev nD) (t : Fin cfg2.N) : (dat2 V c).after 7 t = iblk2 V c 7 t := by dsimp only [dat2]

theorem after2_8 (c : Dev nD) (t : Fin cfg2.N) : (dat2 V c).after 8 t = iblk2 V c 8 t := by dsimp only [dat2]

theorem after2_9 (c : Dev nD) (t : Fin cfg2.N) : (dat2 V c).after 9 t = iblk2 V c 9 t := by dsimp only [dat2]

theorem after2_10 (c : Dev nD) (t : Fin cfg2.N) : (dat2 V c).after 10 t = iblk2 V c 10 t := by dsimp only [dat2]

theorem after2_11 (c : Dev nD) (t : Fin cfg2.N) : (dat2 V c).after 11 t = iblk2 V c 11 t := by dsimp only [dat2]

theorem after2_12 (c : Dev nD) (t : Fin cfg2.N) : (dat2 V c).after 12 t = out2_12 (cAcc2 V c (t.val + 1)) (sAcc2 V c (t.val + 1)) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)

theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

theorem before2_8 (c : Dev nD) (t : Fin cfg2.N) (d) : (dat2 V c).before 8 t d = iblk2 V c 8 t :=
  ((dat2 V c).before_in_eq_fetched 8 rfl (fun _ => rfl) (fun _ _ _ => rfl) (fun t => by rw [after2_8]; unfold Dat.blockOf iblk2; rw [A_eq2]; try rfl) t d).trans
    (by unfold Dat.fetched Dat.blockOf iblk2; rw [A_eq2]; try rfl)

theorem before2_9 (c : Dev nD) (t : Fin cfg2.N) (d) : (dat2 V c).before 9 t d = iblk2 V c 9 t :=
  ((dat2 V c).before_in_eq_fetched 9 rfl (fun _ => rfl) (fun _ _ _ => rfl) (fun t => by rw [after2_9]; unfold Dat.blockOf iblk2; rw [A_eq2]; try rfl) t d).trans
    (by unfold Dat.fetched Dat.blockOf iblk2; rw [A_eq2]; try rfl)

theorem before2_10 (c : Dev nD) (t : Fin cfg2.N) (d) : (dat2 V c).before 10 t d = iblk2 V c 10 t :=
  ((dat2 V c).before_in_eq_fetched 10 rfl (fun _ => rfl) (fun _ _ _ => rfl) (fun t => by rw [after2_10]; unfold Dat.blockOf iblk2; rw [A_eq2]; try rfl) t d).trans
    (by unfold Dat.fetched Dat.blockOf iblk2; rw [A_eq2]; try rfl)

theorem before2_11 (c : Dev nD) (t : Fin cfg2.N) (d) : (dat2 V c).before 11 t d = iblk2 V c 11 t :=
  ((dat2 V c).before_in_eq_fetched 11 rfl (fun _ => rfl) (fun _ _ _ => rfl) (fun t => by rw [after2_11]; unfold Dat.blockOf iblk2; rw [A_eq2]; try rfl) t d).trans
    (by unfold Dat.fetched Dat.blockOf iblk2; rw [A_eq2]; try rfl)

theorem Phi2_eq (c : Dev nD) (t : Fin (cfg2.N + 1)) : (dat2 V c).Φ t = Phi2N V c t.val := by
  dsimp only [dat2, Phi2]

theorem Phi2_in (c : Dev nD) :
    iprop((∃ r, prngReg c r) ∗ Pipeline.scopedRest (Ix := Unit) (Name := ℕ) (U := UR sig nD τ) (Lvl := ℕ) (Val := Elt F) spec2 c) ⊢ (dat2 V c).Φ 0 := by
  rw [Phi2_eq, show ((0 : Fin (cfg2.N + 1)).val) = 0 from rfl, Phi2N_zero, scopedRest2_split]
  simp only [scM2_0, scM2_1, owns_whole]
  iintro ⟨Hr, ⟨Hs0, Hs1⟩, Hrest⟩
  isplitl [Hs0 Hs1]
  · isplitl [Hs0]; · iexact Hs0
    iexact Hs1
  isplitl [Hrest]; · iexact Hrest
  iexact Hr

theorem Phi2_out (c : Dev nD) :
    (dat2 V c).Φ (Fin.last cfg2.N) ⊢ iprop((∃ r, prngReg c r) ∗ Pipeline.scopedRest (Ix := Unit) (Name := ℕ) (U := UR sig nD τ) (Lvl := ℕ) (Val := Elt F) spec2 c) := by
  rw [Phi2_eq, show ((Fin.last cfg2.N).val) = 24 + 1 from rfl, Phi2N_succ, scopedRest2_split]
  simp only [scM2_0, scM2_1, owns_whole]
  iintro ⟨⟨Hs0, Hs1⟩, Hrest, Hr⟩
  isplitl [Hr]; · iexact Hr
  isplitl [Hs0 Hs1]
  · isplitl [Hs0]; · iexists _; iexact Hs0
    iexists _; iexact Hs1
  iexact Hrest

end Cert.KernelIdeal.Hand

end
-- ==== Proof.KI.Dat3.lean ====
import proofs.«420848_j14422500180474_3_alg».proof.Proof.Gen.KernelIdeal.Launch
import proofs.«420848_j14422500180474_3_alg».proof.Proof.Gen.KernelIdeal.Skeleton
import proofs.«420848_j14422500180474_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0

abbrev r3_1 : Rect S5000x1 := Rect.unit (s := S5000x1) ![0, 0] S5000x1.size inb_S5000x1_S5000x1_0_0

abbrev r3_2 : Rect S128x128 := Rect.unit (s := S128x128) ![0, 0] S128x128.size inb_S128x128_S128x128_0_0

abbrev r3_3 : Rect S1x128 := Rect.unit (s := S1x128) ![0, 0] S1x128.size inb_S1x128_S1x128_0_0

abbrev r3_4 : Rect S256x128 := Rect.unit (s := S256x128) ![0, 0] S256x128.size inb_S256x128_S256x128_0_0

abbrev r3_5 : Rect S1x256 := Rect.unit (s := S1x256) ![0, 0] S1x256.size inb_S1x256_S1x256_0_0

theorem hz3 : (![0, 0] : Fin 2 → ℕ) = fun _ => 0 := by funext a; fin_cases a <;> rfl

def rows3 (x0 : Vec F S5000x128 .f32) (x1 : Vec F S5000x1 .f32) (x2 : Vec F S5000x128 .f32)
    (x4 : Vec F S128x128 .f32) (x5 : Vec F S1x128 .f32) (x6 : Vec F S128x128 .f32) : FVec F S5000x128 .bf16 :=
  k3_pay7 (View.ld x2 r3_0) (View.ld x1 r3_1) (View.ld x0 r3_0) (View.ld x4 r3_2) (View.ld x6 r3_2) (View.ld x5 r3_3)

def hot3 (x3 : Vec F S5000x1 .i32) : IVec S5000x256 1 := k3_pay8 (View.ld x3 r3_1)

def sStep3 (x0 : Vec F S5000x128 .f32) (x1 : Vec F S5000x1 .f32) (x2 : Vec F S5000x128 .f32) (x3 : Vec F S5000x1 .i32)
    (x4 : Vec F S128x128 .f32) (x5 : Vec F S1x128 .f32) (x6 : Vec F S128x128 .f32) (s : Vec F S256x128 .f32) : Vec F S256x128 .f32 :=
  View.canon [⟨r3_4, k3_pay2 (rows3 x0 x1 x2 x4 x5 x6) (hot3 x3) (View.ld s r3_4)⟩]

def cStep3 (x3 : Vec F S5000x1 .i32) (n : Vec F S1x256 .f32) : Vec F S1x256 .f32 :=
  View.canon [⟨r3_5, k3_pay3 (hot3 x3) (View.ld n r3_5)⟩]

def sZero3 : Vec F S256x128 .f32 := View.canon [⟨r3_4, k3_pay5 (F := F)⟩]

def cZero3 : Vec F S1x256 .f32 := View.canon [⟨r3_5, k3_pay6 (F := F)⟩]

def out3_7 (n : Vec F S1x256 .f32) (s : Vec F S256x128 .f32) : Vec F S256x128 .f32 :=
  View.canon [⟨r3_4, k3_pay4 (View.ld n r3_5) (View.ld s r3_4)⟩]

theorem cover3_7 (p0 : Vec F S256x128 .f32) (L : List (View.Piece (Elt F) S256x128 .f32)) (y : S256x128.Idx) :
    ∃ pc ∈ ((⟨r3_4, p0⟩ : View.Piece (Elt F) S256x128 .f32) :: L), y ∈ pc.1.set :=
  ⟨_, List.mem_cons_self, View.mem_set_unit_zero hz3 inb_S256x128_S256x128_0_0 y⟩

theorem cover3_c (p0 : Vec F S1x256 .f32) (L : List (View.Piece (Elt F) S1x256 .f32)) (y : S1x256.Idx) :
    ∃ pc ∈ ((⟨r3_5, p0⟩ : View.Piece (Elt F) S1x256 .f32) :: L), y ∈ pc.1.set :=
  ⟨_, List.mem_cons_self, View.mem_set_unit_zero hz3 inb_S1x256_S1x256_0_0 y⟩

def pt3 (n : ℕ) : Fin cfg3.N := ⟨min n 19, lt_of_le_of_lt (Nat.min_le_right n 19) (by decide)⟩

theorem pt3_val (t : Fin cfg3.N) : pt3 t.val = t :=
  Fin.ext (Nat.min_eq_left (Nat.le_of_lt_succ (lt_of_lt_of_eq t.isLt (show cfg3.N = 19 + 1 from N_3))))

def sStepAt3 (c : Dev nD) (t : Fin cfg3.N) (s : Vec F S256x128 .f32) : Vec F S256x128 .f32 :=
  sStep3 (iblk3 V c 0 t) (iblk3 V c 1 t) (iblk3 V c 2 t) (iblk3 V c 3 t) (iblk3 V c 4 t) (iblk3 V c 5 t) (iblk3 V c 6 t) s

def cStepAt3 (c : Dev nD) (t : Fin cfg3.N) (n : Vec F S1x256 .f32) : Vec F S1x256 .f32 :=
  cStep3 (iblk3 V c 3 t) n

def sAcc3 (c : Dev nD) : ℕ → Vec F S256x128 .f32
  | 0 => sZero3
  | n + 1 => sStepAt3 V c (pt3 n) (sAcc3 c n)

def cAcc3 (c : Dev nD) : ℕ → Vec F S1x256 .f32
  | 0 => cZero3
  | n + 1 => cStepAt3 V c (pt3 n) (cAcc3 c n)

theorem sAcc3_succ (c : Dev nD) (n : ℕ) (hn : n < cfg3.N) : sAcc3 V c (n + 1) = sStepAt3 V c ⟨n, hn⟩ (sAcc3 V c n) := by
  show sStepAt3 V c (pt3 n) (sAcc3 V c n) = _
  rw [show pt3 n = ⟨n, hn⟩ from pt3_val ⟨n, hn⟩]

theorem cAcc3_succ (c : Dev nD) (n : ℕ) (hn : n < cfg3.N) : cAcc3 V c (n + 1) = cStepAt3 V c ⟨n, hn⟩ (cAcc3 V c n) := by
  show cStepAt3 V c (pt3 n) (cAcc3 V c n) = _
  rw [show pt3 n = ⟨n, hn⟩ from pt3_val ⟨n, hn⟩]

abbrev scM3_0 : Memref sig .tc .vmem S256x128 .f32 := Memref.whole cc3_scratch0

abbrev scM3_1 : Memref sig .tc .vmem S1x256 .f32 := Memref.whole cc3_scratch1

def scr3 (c : Dev nD) : ℕ → sProp 𝕄
  | 0 => iprop((∃ f : Buf (Elt F) ((c : Thread nD τ).loc cc3_scratch0), ((c : Thread nD τ).loc cc3_scratch0) ↦{fullShare} f)
      ∗ (∃ f : Buf (Elt F) ((c : Thread nD τ).loc cc3_scratch1), ((c : Thread nD τ).loc cc3_scratch1) ↦{fullShare} f))
  | n + 1 => iprop(owns (c : Thread nD τ) scM3_0 fullShare (sAcc3 V c (n + 1)) ∗ owns (c : Thread nD τ) scM3_1 fullShare (cAcc3 V c (n + 1)))

def Phi3 (c : Dev nD) (t : Fin (cfg3.N + 1)) : sProp 𝕄 :=
  iprop(scr3 V c t.val
    ∗ Pipeline.scopedRestBut (Ix := Unit) (Name := ℕ) (U := UR sig nD τ) (Lvl := ℕ) (Val := Elt F) spec3 c [cc3_scratch0, cc3_scratch1]
    ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (cAcc3 V c (t.val + 1)) (sAcc3 V c (t.val + 1))
  Φ := Phi3 V c
  q _ := fullShare
  owed _ := 0

theorem A_eq3 (c : Dev nD) (w : Fin cfg3.W) : (dat3 V c).A w = V c (Pipeline.arrRef spec3 w) := by
  dsimp only [dat3]

theorem Phi_eq3 (c : Dev nD) (t : Fin (cfg3.N + 1)) : (dat3 V c).Φ t = Phi3 V c t := by dsimp only [dat3]

theorem after3_0 (c : Dev nD) (t : Fin cfg3.N) : (dat3 V c).after 0 t = iblk3 V c 0 t := by dsimp only [dat3]

theorem after3_1 (c : Dev nD) (t : Fin cfg3.N) : (dat3 V c).after 1 t = iblk3 V c 1 t := by dsimp only [dat3]

theorem after3_2 (c : Dev nD) (t : Fin cfg3.N) : (dat3 V c).after 2 t = iblk3 V c 2 t := by dsimp only [dat3]

theorem after3_3 (c : Dev nD) (t : Fin cfg3.N) : (dat3 V c).after 3 t = iblk3 V c 3 t := by dsimp only [dat3]

theorem after3_4 (c : Dev nD) (t : Fin cfg3.N) : (dat3 V c).after 4 t = iblk3 V c 4 t := by dsimp only [dat3]

theorem after3_5 (c : Dev nD) (t : Fin cfg3.N) : (dat3 V c).after 5 t = iblk3 V c 5 t := by dsimp only [dat3]

theorem after3_6 (c : Dev nD) (t : Fin cfg3.N) : (dat3 V c).after 6 t = iblk3 V c 6 t := by dsimp only [dat3]

theorem after3_7 (c : Dev nD) (t : Fin cfg3.N) : (dat3 V c).after 7 t = out3_7 (cAcc3 V c (t.val + 1)) (sAcc3 V c (t.val + 1)) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)

theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)

theorem Phi3_in (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [Phi_eq3, scopedRest3_split]
  unfold Phi3
  rw [show ((0 : Fin (cfg3.N + 1)).val) = 0 from rfl]
  unfold scr3
  iintro ⟨Hp, Hs, Hr⟩
  isplitl [Hs]; · iexact Hs
  isplitl [Hr]; · iexact Hr
  iexact Hp

theorem Phi3_out (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := by
  rw [Phi_eq3, scopedRest3_split]
  unfold Phi3
  rw [show ((Fin.last cfg3.N).val) = 19 + 1 from N_3]
  unfold scr3
  simp only [owns_whole]
  iintro ⟨⟨Hs0, Hs1⟩, Hb, Hr⟩
  isplitl [Hr]; · iexact Hr
  isplitl [Hs0 Hs1]
  · isplitl [Hs0]
    · iexists _; iexact Hs0
    · iexists _; iexact Hs1
  iexact Hb

end Cert.KernelIdeal.Hand

end
-- ==== Proof.KI.Dat4.lean ====
import proofs.«420848_j14422500180474_3_alg».proof.Proof.Gen.KernelIdeal.Launch
import proofs.«420848_j14422500180474_3_alg».proof.Proof.Gen.KernelIdeal.Skeleton
import proofs.«420848_j14422500180474_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S256x128 := Rect.unit (s := S256x128) ![0, 0] S256x128.size inb_S256x128_S256x128_0_0

abbrev r4_1 : Rect S128x16 := Rect.unit (s := S128x16) ![0, 0] S128x16.size inb_S128x16_S128x16_0_0

abbrev r4_2 : Rect S1x16 := Rect.unit (s := S1x16) ![0, 0] S1x16.size inb_S1x16_S1x16_0_0

abbrev r4_3 : Rect S256x16 := Rect.unit (s := S256x16) ![0, 0] S256x16.size inb_S256x16_S256x16_0_0

def out4_4 (x0 : Vec F S256x128 .f32) (x1 : Vec F S256x128 .f32) (x2 : Vec F S128x16 .f32) (x3 : Vec F S1x16 .f32) : Vec F S256x16 .f32 :=
  View.canon [⟨r4_3, k4_pay1 (View.ld x0 r4_0) (View.ld x1 r4_0) (View.ld x2 r4_1) (View.ld x3 r4_2)⟩]

theorem cover4_4 (p0 : Vec F S256x16 .f32) (y : S256x16.Idx) :
    ∃ pc ∈ ([⟨r4_3, p0⟩] : List (View.Piece (Elt F) S256x16 .f32)), y ∈ pc.1.set :=
  View.cover_of_tiled [⟨r4_3, p0⟩] S256x16.size (by rfl) y

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) : (dat4 V c).after 2 t = iblk4 V c 2 t := by dsimp only [dat4]

theorem after4_3 (c : Dev nD) (t : Fin cfg4.N) : (dat4 V c).after 3 t = iblk4 V c 3 t := by dsimp only [dat4]

theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

end Cert.KernelIdeal.Hand

end
-- ==== Proof.KI.Fold.lean ====
import proofs.«420848_j14422500180474_3_alg».proof.Proof.KI.Dat0
import proofs.«420848_j14422500180474_3_alg».proof.Proof.KI.Dat1
import proofs.«420848_j14422500180474_3_alg».proof.Proof.KI.Dat2
import proofs.«420848_j14422500180474_3_alg».proof.Proof.KI.Dat3
import proofs.«420848_j14422500180474_3_alg».proof.Proof.KI.Dat4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm

theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm

theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N

theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w

theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm

theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N

theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w

theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm

theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N

theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w

theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm

theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c

end Cert.KernelIdeal.Hand

end
-- ==== Proof.KI.Body0.lean ====
import proofs.«420848_j14422500180474_3_alg».proof.Proof.KI.Dat0
import proofs.«420848_j14422500180474_3_alg».proof.Proof.Gen.KernelIdeal.Launch
import proofs.«420848_j14422500180474_3_alg».proof.Proof.Gen.KernelIdeal.Skeleton
import proofs.«420848_j14422500180474_3_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

set_option maxHeartbeats 1000000 in
theorem sound_kernel0 (c : Dev nD) (E : Set ℕ) (i : grid0.Coords)
    (arg1 : Memref sig .tc .vmem S5000x64 .f32) (harg1 : arg1.IsWhole) (arg2 : Memref sig .tc .vmem S64x128 .f32) (harg2 : arg2.IsWhole)
    (arg3 : Memref sig .tc .vmem S1x128 .f32) (harg3 : arg3.IsWhole) (arg4 : Memref sig .tc .vmem S5000x128 .f32) (harg4 : arg4.IsWhole)
    (arg5 : Memref sig .tc .vmem S5000x128 .bf16) (harg5 : arg5.IsWhole)
    (x0 : Vec F S5000x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__linear_bias_kernel i arg1 harg1 arg2 harg2 arg3 harg3 arg4 harg4 arg5 harg5) K := by
  simp only [cc0__linear_bias_kernel_eq_skeleton]; unfold cc0__linear_bias_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body2.lean ====
import proofs.«420848_j14422500180474_3_alg».proof.Proof.KI.Dat2
import proofs.«420848_j14422500180474_3_alg».proof.Proof.Gen.KernelIdeal.Launch
import proofs.«420848_j14422500180474_3_alg».proof.Proof.Gen.KernelIdeal.Skeleton
import proofs.«420848_j14422500180474_3_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 24 :=
  (by decide +kernel : ∀ t : Fin grid2.N, cond2_1 (grid2.coords t) ↔ t.val = 24)

theorem liveAt2_0 : ∀ t : Fin cfg2.N, cfg2.idle 0 (grid2.coords t) = false := fun _ => rfl

theorem liveAt2_1 : ∀ t : Fin cfg2.N, cfg2.idle 1 (grid2.coords t) = false := fun _ => rfl

theorem liveAt2_2 : ∀ t : Fin cfg2.N, cfg2.idle 2 (grid2.coords t) = false := fun _ => rfl

theorem liveAt2_3 : ∀ t : Fin cfg2.N, cfg2.idle 3 (grid2.coords t) = false := fun _ => rfl

theorem liveAt2_4 : ∀ t : Fin cfg2.N, cfg2.idle 4 (grid2.coords t) = false := fun _ => rfl

theorem liveAt2_5 : ∀ t : Fin cfg2.N, cfg2.idle 5 (grid2.coords t) = false := fun _ => rfl

theorem liveAt2_6 : ∀ t : Fin cfg2.N, cfg2.idle 6 (grid2.coords t) = false := fun _ => rfl

theorem liveAt2_7 : ∀ t : Fin cfg2.N, cfg2.idle 7 (grid2.coords t) = false := fun _ => rfl

theorem liveAt2_8 : ∀ t : Fin cfg2.N, cfg2.idle 8 (grid2.coords t) = false := fun _ => rfl

theorem liveAt2_9 : ∀ t : Fin cfg2.N, cfg2.idle 9 (grid2.coords t) = false := fun _ => rfl

theorem liveAt2_10 : ∀ t : Fin cfg2.N, cfg2.idle 10 (grid2.coords t) = false := fun _ => rfl

theorem liveAt2_11 : ∀ t : Fin cfg2.N, cfg2.idle 11 (grid2.coords t) = false := fun _ => rfl

theorem idleAt2_12 : ∀ t : Fin cfg2.N, ¬cond2_1 (grid2.coords t) → cfg2.idle 12 (grid2.coords t) = true := by decide +kernel

theorem noFlush2_12 : ∀ t : Fin cfg2.N, ¬cond2_1 (grid2.coords t) → (cfg2.win 12).flush t = false := by decide +kernel

theorem liveAt2_12 : ∀ t : Fin cfg2.N, cond2_1 (grid2.coords t) → cfg2.idle 12 (grid2.coords t) = false := by decide +kernel

section

variable (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x1 .f32) (harg4 : arg4.IsWhole) (arg5 : Memref sig .tc .vmem S4000x128 .f32) (harg5 : arg5.IsWhole) (arg6 : Memref sig .tc .vmem S4000x1 .i32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x256 .f32) (harg15 : arg15.IsWhole)

set_option maxHeartbeats 4000000 in
theorem sound_kernel2_mid
    (hc0 : ¬cond2_0 i) (hc1 : ¬cond2_1 i) (x0 x1 : Vec F S4000x128 .f32) (x2 x3 : Vec F S4000x1 .f32) (x4 : Vec F S4000x128 .f32) (x5 : Vec F S4000x1 .i32) (x6 x7 : Vec F S128x128 .f32) (x8 x9 : Vec F S1x128 .f32) (x10 x11 : Vec F S128x128 .f32) (s : Vec F S256x128 .f32) (n : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg14 fullShare s ∗ owns (c : Thread nD τ) arg15 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg14 fullShare (sStep2 x0 x1 x2 x3 x4 x5 x6 x7 x8 x9 x10 x11 s) ∗ owns (c : Thread nD τ) arg15 fullShare (cStep2 x5 n)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2_kernel_eq_skeleton]; unfold cc2_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs, %hfs, HS⟩, ⟨%fn, %hfn, HN⟩, Hk⟩
  subst hf0; subst hf1; subst hf2; subst hf3; subst hf4; subst hf5; subst hf6; subst hf7; subst hf8; subst hf9; subst hf10; subst hf11; subst hfs; subst hfn
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [HS]
  · iexists _; isplitr
    swap; · iexact HS
    ipureintro
    refine (View.read_writes_eq_canon _ _ _ (cover2_s_cons _ _)).trans ?_
    rw [sStep2_eq]; sl_unfold_run_names
    rw [View.canon_cons_unit_zero (S := S256x128) hz2]
    simp only [View.readAt_eq_ld, View.ld_unit_zero (S := S4000x128) hz2, View.ld_unit_zero (S := S4000x1) hz2, View.ld_unit_zero (S := S128x128) hz2,
      View.ld_unit_zero (S := S1x128) hz2, View.ld_unit_zero (S := S256x128) hz2, View.ld_unit_zero (S := S1x256) hz2,
      View.readCov_unit_zero (S := S256x128) _ hz2, View.readCov_unit_zero (S := S1x256) _ hz2]
  iexists _; isplitr
  swap; · iexact HN
  ipureintro
  refine (View.read_writes_eq_canon _ _ _ (cover2_c_cons _ _)).trans ?_
  rw [cStep2_eq]; sl_unfold_run_names
  rw [View.canon_cons_unit_zero (S := S1x256) hz2]
  simp only [View.readAt_eq_ld, View.ld_unit_zero (S := S4000x128) hz2, View.ld_unit_zero (S := S4000x1) hz2, View.ld_unit_zero (S := S128x128) hz2,
      View.ld_unit_zero (S := S1x128) hz2, View.ld_unit_zero (S := S256x128) hz2, View.ld_unit_zero (S := S1x256) hz2,
      View.readCov_unit_zero (S := S256x128) _ hz2, View.readCov_unit_zero (S := S1x256) _ hz2]

set_option maxHeartbeats 4000000 in
theorem sound_kernel2_first
    (hc0 : cond2_0 i) (hc1 : ¬cond2_1 i) (x0 x1 : Vec F S4000x128 .f32) (x2 x3 : Vec F S4000x1 .f32) (x4 : Vec F S4000x128 .f32) (x5 : Vec F S4000x1 .i32) (x6 x7 : Vec F S128x128 .f32) (x8 x9 : Vec F S1x128 .f32) (x10 x11 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg14 fullShare (sStep2 x0 x1 x2 x3 x4 x5 x6 x7 x8 x9 x10 x11 sReset2) ∗ owns (c : Thread nD τ) arg15 fullShare (cStep2 x5 cReset2)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2_kernel_eq_skeleton]; unfold cc2_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds, %fs, -, HS⟩, ⟨%dn, %fn, -, HN⟩, Hk⟩
  subst hf0; subst hf1; subst hf2; subst hf3; subst hf4; subst hf5; subst hf6; subst hf7; subst hf8; subst hf9; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [HS]
  · iexists _; isplitr
    swap; · iexact HS
    ipureintro
    refine (View.read_writes_eq_canon _ _ _ (cover2_s_cons _ _)).trans ?_
    rw [sStep2_eq, sReset2_eq]; sl_unfold_run_names
    rw [View.canon_cons_unit_zero (S := S256x128) hz2]
    simp only [View.readAt_eq_ld, View.ld_unit_zero (S := S4000x128) hz2, View.ld_unit_zero (S := S4000x1) hz2, View.ld_unit_zero (S := S128x128) hz2,
      View.ld_unit_zero (S := S1x128) hz2, View.ld_unit_zero (S := S256x128) hz2, View.ld_unit_zero (S := S1x256) hz2,
      View.readCov_unit_zero (S := S256x128) _ hz2, View.readCov_unit_zero (S := S1x256) _ hz2]
  iexists _; isplitr
  swap; · iexact HN
  ipureintro
  refine (View.read_writes_eq_canon _ _ _ (cover2_c_cons _ _)).trans ?_
  rw [cStep2_eq, cReset2_eq]; sl_unfold_run_names
  rw [View.canon_cons_unit_zero (S := S1x256) hz2]
  simp only [View.readAt_eq_ld, View.ld_unit_zero (S := S4000x128) hz2, View.ld_unit_zero (S := S4000x1) hz2, View.ld_unit_zero (S := S128x128) hz2,
      View.ld_unit_zero (S := S1x128) hz2, View.ld_unit_zero (S := S256x128) hz2, View.ld_unit_zero (S := S1x256) hz2,
      View.readCov_unit_zero (S := S256x128) _ hz2, View.readCov_unit_zero (S := S1x256) _ hz2]

set_option maxHeartbeats 4000000 in
theorem sound_kernel2_last
    (hc0 : ¬cond2_0 i) (hc1 : cond2_1 i) (x0 x1 : Vec F S4000x128 .f32) (x2 x3 : Vec F S4000x1 .f32) (x4 : Vec F S4000x128 .f32) (x5 : Vec F S4000x1 .i32) (x6 x7 : Vec F S128x128 .f32) (x8 x9 : Vec F S1x128 .f32) (x10 x11 : Vec F S128x128 .f32) (s : Vec F S256x128 .f32) (n : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare s ∗ owns (c : Thread nD τ) arg15 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out2_12 (cStep2 x5 n) (sStep2 x0 x1 x2 x3 x4 x5 x6 x7 x8 x9 x10 x11 s))
            ∗ owns (c : Thread nD τ) arg14 fullShare (sStep2 x0 x1 x2 x3 x4 x5 x6 x7 x8 x9 x10 x11 s) ∗ owns (c : Thread nD τ) arg15 fullShare (cStep2 x5 n)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2_kernel_eq_skeleton]; unfold cc2_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs, %hfs, HS⟩, ⟨%fn, %hfn, HN⟩, Hk⟩
  subst hf0; subst hf1; subst hf2; subst hf3; subst hf4; subst hf5; subst hf6; subst hf7; subst hf8; subst hf9; subst hf10; subst hf11; subst hfs; subst hfn
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover2_s_cons _ _)).trans ?_
    rw [out2_12_eq, sStep2_eq, cStep2_eq]; sl_unfold_run_names
    rw [View.canon_cons_unit_zero (S := S256x128) hz2]
    simp only [View.readAt_eq_ld, View.ld_unit_zero (S := S4000x128) hz2, View.ld_unit_zero (S := S4000x1) hz2, View.ld_unit_zero (S := S128x128) hz2,
      View.ld_unit_zero (S := S1x128) hz2, View.ld_unit_zero (S := S256x128) hz2, View.ld_unit_zero (S := S1x256) hz2,
      View.readCov_unit_zero (S := S256x128) _ hz2, View.readCov_unit_zero (S := S1x256) _ hz2]
  isplitl [HS]
  · iexists _; isplitr
    swap; · iexact HS
    ipureintro
    refine (View.read_writes_eq_canon _ _ _ (cover2_s_cons _ _)).trans ?_
    rw [sStep2_eq]; sl_unfold_run_names
    rw [View.canon_cons_unit_zero (S := S256x128) hz2]
    simp only [View.readAt_eq_ld, View.ld_unit_zero (S := S4000x128) hz2, View.ld_unit_zero (S := S4000x1) hz2, View.ld_unit_zero (S := S128x128) hz2,
      View.ld_unit_zero (S := S1x128) hz2, View.ld_unit_zero (S := S256x128) hz2, View.ld_unit_zero (S := S1x256) hz2,
      View.readCov_unit_zero (S := S256x128) _ hz2, View.readCov_unit_zero (S := S1x256) _ hz2]
  iexists _; isplitr
  swap; · iexact HN
  ipureintro
  refine (View.read_writes_eq_canon _ _ _ (cover2_c_cons _ _)).trans ?_
  rw [cStep2_eq]; sl_unfold_run_names
  rw [View.canon_cons_unit_zero (S := S1x256) hz2]
  simp only [View.readAt_eq_ld, View.ld_unit_zero (S := S4000x128) hz2, View.ld_unit_zero (S := S4000x1) hz2, View.ld_unit_zero (S := S128x128) hz2,
      View.ld_unit_zero (S := S1x128) hz2, View.ld_unit_zero (S := S256x128) hz2, View.ld_unit_zero (S := S1x256) hz2,
      View.readCov_unit_zero (S := S256x128) _ hz2, View.readCov_unit_zero (S := S1x256) _ hz2]

end

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).owesAt () t.succ = (dat2 V c).owesAt () t.castSucc from rfl]
  rw [Phi2_eq, Phi2_eq, Fin.coe_castSucc, Fin.val_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  rw [show (dat2 V c).leavesExact 8 t = owns (c : Thread nD τ) (st2_8 t) fullShare ((dat2 V c).after 8 t) from by
    unfold Dat.leavesExact; rw [liveAt2_8 t], after2_8]
  rw [show (dat2 V c).leavesExact 9 t = owns (c : Thread nD τ) (st2_9 t) fullShare ((dat2 V c).after 9 t) from by
    unfold Dat.leavesExact; rw [liveAt2_9 t], after2_9]
  rw [show (dat2 V c).leavesExact 10 t = owns (c : Thread nD τ) (st2_10 t) fullShare ((dat2 V c).after 10 t) from by
    unfold Dat.leavesExact; rw [liveAt2_10 t], after2_10]
  rw [show (dat2 V c).leavesExact 11 t = owns (c : Thread nD τ) (st2_11 t) fullShare ((dat2 V c).after 11 t) from by
    unfold Dat.leavesExact; rw [liveAt2_11 t], after2_11]
  have hN : t.val < 25 := lt_of_lt_of_eq t.isLt (show cfg2.N = 25 from N_2)
  rw [Phi2N_succ, sAcc2_succ V c t.val t.isLt, cAcc2_succ V c t.val t.isLt]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 12 t (idleAt2_12 t hc1) (noFlush2_12 t hc1)]
    rw [show sAcc2 V c t.val = sReset2 from by rw [h0, sAcc2_zero], show cAcc2 V c t.val = cReset2 from by rw [h0, cAcc2_zero]]
    rw [show Phi2N V c t.val = Phi2N V c 0 from by rw [h0], Phi2N_zero]
    iintro ⟨⟨⟨HS, HN⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
    iapply (sound_kernel2_first c Set.univ (grid2.coords t) _ _ _ _ _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    isplitl [HN]; · iexact HN
    iintro ⟨H0, H1, H2, H3, H4, H5, H6, H7, H8, H9, H10, H11, HS, HN⟩
    isplitl [HS HN Hrest Hg]
    · isplitl [HS HN]
      · isplitl [HS]; · iexact HS
        iexact HN
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · have hc0 : ¬cond2_0 (grid2.coords t) := fun h => h0 ((hcond2_0 t).mp h)
    rw [Phi2N_pos V c t.val h0]
    by_cases h24 : t.val = 24
    · have hc1 : cond2_1 (grid2.coords t) := (hcond2_1 t).mpr h24
      rw [show (dat2 V c).leavesExact 12 t = owns (c : Thread nD τ) (st2_12 t) fullShare ((dat2 V c).after 12 t) from by
        unfold Dat.leavesExact; rw [liveAt2_12 t hc1], after2_12]
      rw [sAcc2_succ V c t.val t.isLt, cAcc2_succ V c t.val t.isLt]
      iintro ⟨⟨⟨HS, HN⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (sound_kernel2_last c Set.univ (grid2.coords t) _ _ _ _ _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (sAcc2 V c t.val) (cAcc2 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS]; · iexact HS
      isplitl [HN]; · iexact HN
      iintro ⟨H0, H1, H2, H3, H4, H5, H6, H7, H8, H9, H10, H11, H12, HS, HN⟩
      isplitl [HS HN Hrest Hg]
      · isplitl [HS HN]
        · isplitl [HS]; · iexact HS
          iexact HN
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · have hc1 : ¬cond2_1 (grid2.coords t) := fun h => h24 ((hcond2_1 t).mp h)
      rw [Dat.leavesExact_idle (dat2 V c) 12 t (idleAt2_12 t hc1) (noFlush2_12 t hc1)]
      iintro ⟨⟨⟨HS, HN⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
      iapply (sound_kernel2_mid c Set.univ (grid2.coords t) _ _ _ _ _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (sAcc2 V c t.val) (cAcc2 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      isplitl [HN]; · iexact HN
      iintro ⟨H0, H1, H2, H3, H4, H5, H6, H7, H8, H9, H10, H11, HS, HN⟩
      isplitl [HS HN Hrest Hg]
      · isplitl [HS HN]
        · isplitl [HS]; · iexact HS
          iexact HN
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
import proofs.«420848_j14422500180474_3_alg».proof.Proof.KI.Dat3
import proofs.«420848_j14422500180474_3_alg».proof.Proof.Gen.KernelIdeal.Launch
import proofs.«420848_j14422500180474_3_alg».proof.Proof.Gen.KernelIdeal.Skeleton
import proofs.«420848_j14422500180474_3_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 20 = 0 :=
  (by decide +kernel : ∀ t : Fin grid3.N, cond3_0 (grid3.coords t) ↔ t.val % 20 = 0)

abbrev cond3_1 (i : grid3.Coords) : Prop := k3_cond2 i = 1#1

theorem hcond3_1 : ∀ t : Fin cfg3.N, cond3_1 (grid3.coords t) ↔ t.val % 20 = 19 :=
  (by decide +kernel : ∀ t : Fin grid3.N, cond3_1 (grid3.coords t) ↔ t.val % 20 = 19)

theorem liveAt3_0 : ∀ t : Fin cfg3.N, cfg3.idle 0 (grid3.coords t) = false := by decide +kernel

theorem liveAt3_1 : ∀ t : Fin cfg3.N, cfg3.idle 1 (grid3.coords t) = false := by decide +kernel

theorem liveAt3_2 : ∀ t : Fin cfg3.N, cfg3.idle 2 (grid3.coords t) = false := by decide +kernel

theorem liveAt3_3 : ∀ t : Fin cfg3.N, cfg3.idle 3 (grid3.coords t) = false := by decide +kernel

theorem liveAt3_4 : ∀ t : Fin cfg3.N, cfg3.idle 4 (grid3.coords t) = false := by decide +kernel

theorem liveAt3_5 : ∀ t : Fin cfg3.N, cfg3.idle 5 (grid3.coords t) = false := by decide +kernel

theorem liveAt3_6 : ∀ t : Fin cfg3.N, cfg3.idle 6 (grid3.coords t) = false := by decide +kernel

theorem idleAt3_7 : ∀ t : Fin cfg3.N, ¬cond3_1 (grid3.coords t) → cfg3.idle 7 (grid3.coords t) = true := by decide +kernel

theorem noFlush3_7 : ∀ t : Fin cfg3.N, ¬cond3_1 (grid3.coords t) → (cfg3.win 7).flush t = false := by decide +kernel

theorem liveAt3_7 : ∀ t : Fin cfg3.N, cond3_1 (grid3.coords t) → cfg3.idle 7 (grid3.coords t) = false := by decide +kernel

section
variable (c : Dev nD) (E : Set ℕ) (i : grid3.Coords)
  (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S5000x1 .i32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x256 .f32) (harg10 : arg10.IsWhole)

set_option maxHeartbeats 4000000 in
theorem sound_kernel3_first (hc0 : cond3_0 i) (hc1 : ¬cond3_1 i)
    (x0 : Vec F S5000x128 .f32) (x1 : Vec F S5000x1 .f32) (x2 : Vec F S5000x128 .f32) (x3 : Vec F S5000x1 .i32) (x4 : Vec F S128x128 .f32) (x5 : Vec F S1x128 .f32) (x6 : Vec F S128x128 .f32) (xi : Vec F S256x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare xi
        ∗ (∃ d, owns (c : Thread nD τ) arg9 fullShare d)
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare xi
          ∗ owns (c : Thread nD τ) arg9 fullShare (sStep3 x0 x1 x2 x3 x4 x5 x6 sZero3)
          ∗ owns (c : Thread nD τ) arg10 fullShare (cStep3 x3 cZero3)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9 arg10 harg10) K := by
  simp only [cc3_kernel_eq_skeleton]; unfold cc3_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, ⟨%dc, %fc, -, HC⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS]
  · iexists _; isplitr
    swap; · iexact HS
    ipureintro
    rw [View.read_writes_eq_canon _ _ _ (cover3_7 _ _)]
    unfold sStep3
    simp only [View.canon_cons_unit_zero (S := S256x128) hz3]
    sl_unfold_words
    rw [View.readCov_eq_canon_ld _ _ _ (cover3_7 _ _)]
    rfl
  iexists _; isplitr
  swap; · iexact HC
  ipureintro
  rw [View.read_writes_eq_canon _ _ _ (cover3_c _ _)]
  unfold cStep3
  simp only [View.canon_cons_unit_zero (S := S1x256) hz3]
  sl_unfold_words
  rw [View.readCov_eq_canon_ld _ _ _ (cover3_c _ _)]
  rfl

set_option maxHeartbeats 4000000 in
theorem sound_kernel3_mid (hc0 : ¬cond3_0 i) (hc1 : ¬cond3_1 i)
    (x0 : Vec F S5000x128 .f32) (x1 : Vec F S5000x1 .f32) (x2 : Vec F S5000x128 .f32) (x3 : Vec F S5000x1 .i32) (x4 : Vec F S128x128 .f32) (x5 : Vec F S1x128 .f32) (x6 : Vec F S128x128 .f32) (xi : Vec F S256x128 .f32) (xs : Vec F S256x128 .f32) (xc : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare xi
        ∗ owns (c : Thread nD τ) arg9 fullShare xs
        ∗ owns (c : Thread nD τ) arg10 fullShare xc
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare xi
          ∗ owns (c : Thread nD τ) arg9 fullShare (sStep3 x0 x1 x2 x3 x4 x5 x6 xs)
          ∗ owns (c : Thread nD τ) arg10 fullShare (cStep3 x3 xc)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9 arg10 harg10) K := by
  simp only [cc3_kernel_eq_skeleton]; unfold cc3_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, ⟨%fc, %hfc, HC⟩, Hk⟩
  subst hf0; subst hf1; subst hf2; subst hf3; subst hf4; subst hf5; subst hf6; subst hf7; subst hfs; subst hfc
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS]
  · iexists _; isplitr
    swap; · iexact HS
    ipureintro
    exact View.read_writes_eq_canon _ _ _ (cover3_7 _ _)
  iexists _; isplitr
  swap; · iexact HC
  ipureintro
  exact View.read_writes_eq_canon _ _ _ (cover3_c _ _)

set_option maxHeartbeats 4000000 in
theorem sound_kernel3_last (hc0 : ¬cond3_0 i) (hc1 : cond3_1 i)
    (x0 : Vec F S5000x128 .f32) (x1 : Vec F S5000x1 .f32) (x2 : Vec F S5000x128 .f32) (x3 : Vec F S5000x1 .i32) (x4 : Vec F S128x128 .f32) (x5 : Vec F S1x128 .f32) (x6 : Vec F S128x128 .f32) (xs : Vec F S256x128 .f32) (xc : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ owns (c : Thread nD τ) arg9 fullShare xs
        ∗ owns (c : Thread nD τ) arg10 fullShare xc
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare (out3_7 (cStep3 x3 xc) (sStep3 x0 x1 x2 x3 x4 x5 x6 xs))
          ∗ owns (c : Thread nD τ) arg9 fullShare (sStep3 x0 x1 x2 x3 x4 x5 x6 xs)
          ∗ owns (c : Thread nD τ) arg10 fullShare (cStep3 x3 xc)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9 arg10 harg10) K := by
  simp only [cc3_kernel_eq_skeleton]; unfold cc3_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, ⟨%fc, %hfc, HC⟩, Hk⟩
  subst hf0; subst hf1; subst hf2; subst hf3; subst hf4; subst hf5; subst hf6; subst hfs; subst hfc
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover3_7 _ _)]
    sl_unfold_words
    rw [View.readCov_eq_canon_ld _ _ _ (cover3_c _ _), View.readCov_eq_canon_ld _ _ _ (cover3_7 _ _)]
    rfl
  isplitl [HS]
  · iexists _; isplitr
    swap; · iexact HS
    ipureintro
    sl_unfold_words
    exact View.read_writes_eq_canon _ _ _ (cover3_7 _ _)
  iexists _; isplitr
  swap; · iexact HC
  ipureintro
  sl_unfold_words
  exact View.read_writes_eq_canon _ _ _ (cover3_c _ _)

end

theorem scr3_succ (c : Dev nD) (n : ℕ) :
    scr3 V c (n + 1) = iprop(owns (c : Thread nD τ) scM3_0 fullShare (sAcc3 V c (n + 1)) ∗ owns (c : Thread nD τ) scM3_1 fullShare (cAcc3 V c (n + 1))) := rfl

theorem scr3_pos (c : Dev nD) (n : ℕ) (hn : n ≠ 0) :
    scr3 V c n = iprop(owns (c : Thread nD τ) scM3_0 fullShare (sAcc3 V c n) ∗ owns (c : Thread nD τ) scM3_1 fullShare (cAcc3 V c n)) := by
  cases n with
  | zero => exact absurd rfl hn
  | succ n => rfl

theorem scr3_zero (c : Dev nD) (n : ℕ) (hn : n = 0) :
    scr3 V c n = iprop((∃ d, owns (c : Thread nD τ) scM3_0 fullShare d) ∗ (∃ d, owns (c : Thread nD τ) scM3_1 fullShare d)) := by
  subst hn; unfold scr3; simp only [scM3_0, scM3_1, owns_whole]; rfl

theorem sAcc3_at (c : Dev nD) (t : Fin cfg3.N) :
    sAcc3 V c (t.val + 1) = sStep3 (iblk3 V c 0 t) (iblk3 V c 1 t) (iblk3 V c 2 t) (iblk3 V c 3 t) (iblk3 V c 4 t) (iblk3 V c 5 t) (iblk3 V c 6 t) (sAcc3 V c t.val) :=
  sAcc3_succ V c t.val t.isLt

theorem cAcc3_at (c : Dev nD) (t : Fin cfg3.N) :
    cAcc3 V c (t.val + 1) = cStep3 (iblk3 V c 3 t) (cAcc3 V c t.val) :=
  cAcc3_succ V c t.val t.isLt

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [Phi_eq3, Phi_eq3]; unfold Phi3
  rw [show (t.succ).val = t.val + 1 from rfl, show (t.castSucc).val = t.val from rfl, scr3_succ, sAcc3_at, cAcc3_at]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  rw [show (dat3 V c).leavesExact 6 t = owns (c : Thread nD τ) (st3_6 t) fullShare ((dat3 V c).after 6 t) from by
    unfold Dat.leavesExact; rw [liveAt3_6 t], after3_6]
  have hN : t.val < 20 := lt_of_lt_of_eq t.isLt N_3
  by_cases h0 : t.val % 20 = 0
  · have h1 : ¬t.val % 20 = 19 := by omega
    have hq0 : cond3_0 (grid3.coords t) := (hcond3_0 t).mpr h0
    have hq1 : ¬cond3_1 (grid3.coords t) := fun h => h1 ((hcond3_1 t).mp h)
    rw [Dat.leavesExact_idle (dat3 V c) 7 t (idleAt3_7 t hq1) (noFlush3_7 t hq1)]
    have hz : t.val = 0 := by omega
    rw [scr3_zero V c t.val hz, show sAcc3 V c t.val = sZero3 from by rw [hz]; rfl, show cAcc3 V c t.val = cZero3 from by rw [hz]; rfl]
    iintro ⟨⟨⟨⟨%ds, HS0⟩, ⟨%dc, HS1⟩⟩, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_first c Set.univ (grid3.coords t) _ _ _ _ _ _ _ _ _ _ _ _ _ _ _ _ _ _ _ _ hq0 hq1 (iblk3 V c 0 t) (iblk3 V c 1 t) (iblk3 V c 2 t) (iblk3 V c 3 t) (iblk3 V c 4 t) (iblk3 V c 5 t) (iblk3 V c 6 t) ((dat3 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexists _; iexact HS1
    iintro ⟨H0, H1, H2, H3, H4, H5, H6, H7, HS0, HS1⟩
    isplitl [HS0 HS1 Hb Hr]
    · isplitl [HS0 HS1]
      · isplitl [HS0]; · iexact HS0
        iexact HS1
      isplitl [Hb]; · iexact Hb
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · have hz : t.val ≠ 0 := by omega
    have hq0 : ¬cond3_0 (grid3.coords t) := fun h => h0 ((hcond3_0 t).mp h)
    rw [scr3_pos V c t.val hz]
    by_cases h1 : t.val % 20 = 19
    · have hq1 : cond3_1 (grid3.coords t) := (hcond3_1 t).mpr h1
      rw [show (dat3 V c).leavesExact 7 t = owns (c : Thread nD τ) (st3_7 t) fullShare ((dat3 V c).after 7 t) from by
        unfold Dat.leavesExact; rw [liveAt3_7 t hq1], after3_7, sAcc3_at, cAcc3_at]
      iintro ⟨⟨⟨HS0, HS1⟩, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_last c Set.univ (grid3.coords t) _ _ _ _ _ _ _ _ _ _ _ _ _ _ _ _ _ _ _ _ hq0 hq1 (iblk3 V c 0 t) (iblk3 V c 1 t) (iblk3 V c 2 t) (iblk3 V c 3 t) (iblk3 V c 4 t) (iblk3 V c 5 t) (iblk3 V c 6 t) (sAcc3 V c t.val) (cAcc3 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hb Hr]
      · isplitl [HS0 HS1]
        · isplitl [HS0]; · iexact HS0
          iexact HS1
        isplitl [Hb]; · iexact Hb
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hq1 : ¬cond3_1 (grid3.coords t) := fun h => h1 ((hcond3_1 t).mp h)
      rw [Dat.leavesExact_idle (dat3 V c) 7 t (idleAt3_7 t hq1) (noFlush3_7 t hq1)]
      iintro ⟨⟨⟨HS0, HS1⟩, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_mid c Set.univ (grid3.coords t) _ _ _ _ _ _ _ _ _ _ _ _ _ _ _ _ _ _ _ _ hq0 hq1 (iblk3 V c 0 t) (iblk3 V c 1 t) (iblk3 V c 2 t) (iblk3 V c 3 t) (iblk3 V c 4 t) (iblk3 V c 5 t) (iblk3 V c 6 t) ((dat3 V c).before 7 t d7) (sAcc3 V c t.val) (cAcc3 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hb Hr]
      · isplitl [HS0 HS1]
        · isplitl [HS0]; · iexact HS0
          iexact HS1
        isplitl [Hb]; · iexact Hb
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
import proofs.«420848_j14422500180474_3_alg».proof.Proof.KI.Dat4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

set_option maxHeartbeats 1000000 in
theorem sound_kernel4 (c : Dev nD) (E : Set ℕ) (i : grid4.Coords) (arg1 : Memref sig .tc .vmem S256x128 .f32) (harg1 : arg1.IsWhole) (arg2 : Memref sig .tc .vmem S256x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S256x16 .f32) (harg5 : arg5.IsWhole)
    (x0 : Vec F S256x128 .f32) (x1 : Vec F S256x128 .f32) (x2 : Vec F S128x16 .f32) (x3 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__output_head_kernel i arg1 harg1 arg2 harg2 arg3 harg3 arg4 harg4 arg5 harg5) K := by
  simp only [cc4__output_head_kernel_eq_skeleton]; unfold cc4__output_head_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«420848_j14422500180474_3_alg».proof.Proof.KI.Fold
import proofs.«420848_j14422500180474_3_alg».proof.Proof.KI.Body0
import proofs.«420848_j14422500180474_3_alg».proof.Proof.KI.Body1
import proofs.«420848_j14422500180474_3_alg».proof.Proof.KI.Body2
import proofs.«420848_j14422500180474_3_alg».proof.Proof.KI.Body3
import proofs.«420848_j14422500180474_3_alg».proof.Proof.KI.Body4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps_fresh :
    ((hostOps0 : List (HloOp τ sig (Elt F))).Forall fun op => op.fresh = ∅) ∧
    ((hostOps1 : List (HloOp τ sig (Elt F))).Forall fun op => op.fresh = ∅) ∧
    ((hostOps2 : List (HloOp τ sig (Elt F))).Forall fun op => op.fresh = ∅) ∧
    ((hostOps3 : List (HloOp τ sig (Elt F))).Forall fun op => op.fresh = ∅) ∧
    ((hostOps4 : List (HloOp τ sig (Elt F))).Forall fun op => op.fresh = ∅) := by
  refine ⟨?_, ?_, ?_, ?_, ?_⟩ <;> simp only [List.Forall] <;> repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    iintro ⟨Hp, -, Hr⟩
    iapply (Phi2_in (V5 m ρ) c)
    isplitl [Hp]; · iexact Hp
    iexact Hr
  hout c := by
    rw [Pipeline.ownSems0_none, show (pdats m ρ 2 c).Φ (Fin.last _) = (dat2 (V5 m ρ) c).Φ (Fin.last cfg2.N) from rfl]
    iintro H
    ihave H2 := (Phi2_out (V5 m ρ) c) $$ H
    icases H2 with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    iintro ⟨Hp, -, Hr⟩
    iapply (Phi3_in (V7 m ρ) c)
    isplitl [Hp]; · iexact Hp
    iexact Hr
  hout c := by
    rw [Pipeline.ownSems0_none, show (pdats m ρ 3 c).Φ (Fin.last _) = (dat3 (V7 m ρ) c).Φ (Fin.last cfg3.N) from rfl]
    iintro H
    ihave H2 := (Phi3_out (V7 m ρ) c) $$ H
    icases H2 with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub (hostOps_fresh (F := F)).1 (W0 m ρ)),
    .region (reg0 m ρ),
    .host (hseg hostOps1 hostOps1_sub (hostOps_fresh (F := F)).2.1 (W2 m ρ)),
    .region (reg1 m ρ),
    .host (hseg hostOps2 hostOps2_sub (hostOps_fresh (F := F)).2.2.1 (W4 m ρ)),
    .region (reg2 m ρ),
    .host (hseg hostOps3 hostOps3_sub (hostOps_fresh (F := F)).2.2.2.1 (W6 m ρ)),
    .region (reg3 m ρ),
    .host (hseg hostOps4 hostOps4_sub (hostOps_fresh (F := F)).2.2.2.2 (W8 m ρ)),
    .region (reg4 m ρ) ]

theorem main_run (c : Dev nD) : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.Hand

end
-- ==== Proof.KI.Args.lean ====
import proofs.«420848_j14422500180474_3_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev hostOps0_W : List (Ref sig .tc) := [main_v0]
abbrev hostOps1_W : List (Ref sig .tc) := [main_v2]
abbrev hostOps2_W : List (Ref sig .tc) := [main_v4, main_v5, main_c, main_v6, main_v7, main_c_0, main_v8, main_v9, main_v10, main_v11, main_v12, main_v13, main_v14, main_v15, main_cst, main_v16, main_v17, main_v18, main_cst_1, main_v19, main_v20, main_v21, main_cst_2, main_v22, main_v23, main_v24, main_v25, main_v26, main_c_3, main_v27, main_v28, main_c_4, main_v29, main_v30, main_v31, main_v32, main_v33, main_v34, main_v35, main_v36, main_cst_5, main_v37, main_v38, main_v39, main_cst_6, main_v40, main_v41, main_v42, main_cst_7, main_v43, main_v44, main_v45, main_v46, main_v47, main_c_8, main_v48, main_v49, main_c_9, main_v50, main_v51, main_v52, main_v53, main_v54, main_v55, main_v56, main_v57, main_cst_10, main_v58, main_v59, main_v60, main_cst_11, main_v61, main_v62, main_v63, main_cst_12, main_v64, main_v65, main_v66, main_v67, main_v68, main_v69]
abbrev hostOps3_W : List (Ref sig .tc) := [main_v71, main_v72]
abbrev hostOps4_W : List (Ref sig .tc) := [main_v74]

abbrev WritesIn (ops : List (HloOp τ sig (Elt F))) (W : List (Ref sig .tc)) : Prop :=
  ops.Forall fun op => op.writes ⊆ (W.map (Proc.devRef (τ := τ) .tc)).toFinset
set_option maxHeartbeats 4000000 in
/-- Each host operation writes its own result buffer only. -/
theorem hostOps_writes : WritesIn (F := F) hostOps0 hostOps0_W ∧ WritesIn (F := F) hostOps1 hostOps1_W ∧
    WritesIn (F := F) hostOps2 hostOps2_W ∧ WritesIn (F := F) hostOps3 hostOps3_W ∧ WritesIn (F := F) hostOps4 hostOps4_W := by
  refine ⟨?_, ?_, ?_, ?_, ?_⟩ <;> simp only [WritesIn, List.Forall] <;> (repeat' apply And.intro) <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A launch changes only its windows' arrays, so an array it hands back as found keeps the entry contents. -/
theorem withArrays_keep {gr W : ℕ} (win : Fin W → Pipeline.WinSpec sig gr) (hinj : Function.Injective (Pipeline.arrRef win))
    (c : Dev nD) (Vl : Valuation τ sig (Elt F)) (A : (w : Fin W) → Buf (Elt F) ((win w).arr.view.loc (c.tc : Thread nD τ)))
    (r : Ref sig .tc) (h : ∀ w, Pipeline.arrRef win w = r → A w = Vl (Proc.devRef .tc (Pipeline.arrRef win w))) :
    Pipeline.withArrays win c Vl A (Proc.devRef .tc r) = Vl (Proc.devRef .tc r) := by
  by_cases hw : ∃ w, Pipeline.arrRef win w = r
  · obtain ⟨w, rfl⟩ := hw
    exact (Pipeline.withArrays_arr win hinj c Vl A w).trans (h w rfl)
  · exact Pipeline.withArrays_of_ne win c Vl A r fun w e => hw ⟨w, e⟩

theorem W1_keep (c : Dev nD) (r : Ref sig .tc) (h : r ∉ hostOps0_W) :
    W1 m ρ c (Proc.devRef .tc r) = W0 m ρ c (Proc.devRef .tc r) :=
  StableHlo.after_of_writes_sub hostOps0 _ hostOps_writes.1 h
theorem W2_keep (c : Dev nD) (r : Ref sig .tc)
    (h : ∀ w : Fin cfg0.W, (cfg0.win w).isOut = true → Pipeline.arrRef spec0 w ≠ r) :
    W2 m ρ c (Proc.devRef .tc r) = W1 m ρ c (Proc.devRef .tc r) :=
  withArrays_keep spec0 launch0.win.arr_inj c _ _ r fun w e =>
    ((dat0 (V1 m ρ) c).arrAt_in w (Bool.eq_false_iff.mpr fun ho => h w ho e) _).trans (A_eq0 (V1 m ρ) c w)
theorem W3_keep (c : Dev nD) (r : Ref sig .tc) (h : r ∉ hostOps1_W) :
    W3 m ρ c (Proc.devRef .tc r) = W2 m ρ c (Proc.devRef .tc r) :=
  StableHlo.after_of_writes_sub hostOps1 _ hostOps_writes.2.1 h
theorem W4_keep (c : Dev nD) (r : Ref sig .tc)
    (h : ∀ w : Fin cfg1.W, (cfg1.win w).isOut = true → Pipeline.arrRef spec1 w ≠ r) :
    W4 m ρ c (Proc.devRef .tc r) = W3 m ρ c (Proc.devRef .tc r) :=
  withArrays_keep spec1 launch1.win.arr_inj c _ _ r fun w e =>
    ((dat1 (V3 m ρ) c).arrAt_in w (Bool.eq_false_iff.mpr fun ho => h w ho e) _).trans (A_eq1 (V3 m ρ) c w)
theorem W5_keep (c : Dev nD) (r : Ref sig .tc) (h : r ∉ hostOps2_W) :
    W5 m ρ c (Proc.devRef .tc r) = W4 m ρ c (Proc.devRef .tc r) :=
  StableHlo.after_of_writes_sub hostOps2 _ hostOps_writes.2.2.1 h
theorem W6_keep (c : Dev nD) (r : Ref sig .tc)
    (h : ∀ w : Fin cfg2.W, (cfg2.win w).isOut = true → Pipeline.arrRef spec2 w ≠ r) :
    W6 m ρ c (Proc.devRef .tc r) = W5 m ρ c (Proc.devRef .tc r) :=
  withArrays_keep spec2 launch2.win.arr_inj c _ _ r fun w e =>
    ((dat2 (V5 m ρ) c).arrAt_in w (Bool.eq_false_iff.mpr fun ho => h w ho e) _).trans (A_eq2 (V5 m ρ) c w)
theorem W7_keep (c : Dev nD) (r : Ref sig .tc) (h : r ∉ hostOps3_W) :
    W7 m ρ c (Proc.devRef .tc r) = W6 m ρ c (Proc.devRef .tc r) :=
  StableHlo.after_of_writes_sub hostOps3 _ hostOps_writes.2.2.2.1 h
theorem W8_keep (c : Dev nD) (r : Ref sig .tc)
    (h : ∀ w : Fin cfg3.W, (cfg3.win w).isOut = true → Pipeline.arrRef spec3 w ≠ r) :
    W8 m ρ c (Proc.devRef .tc r) = W7 m ρ c (Proc.devRef .tc r) :=
  withArrays_keep spec3 launch3.win.arr_inj c _ _ r fun w e =>
    ((dat3 (V7 m ρ) c).arrAt_in w (Bool.eq_false_iff.mpr fun ho => h w ho e) _).trans (A_eq3 (V7 m ρ) c w)
theorem W9_keep (c : Dev nD) (r : Ref sig .tc) (h : r ∉ hostOps4_W) :
    W9 m ρ c (Proc.devRef .tc r) = W8 m ρ c (Proc.devRef .tc r) :=
  StableHlo.after_of_writes_sub hostOps4 _ hostOps_writes.2.2.2.2 h
theorem W10_keep (c : Dev nD) (r : Ref sig .tc)
    (h : ∀ w : Fin cfg4.W, (cfg4.win w).isOut = true → Pipeline.arrRef spec4 w ≠ r) :
    W10 m ρ c (Proc.devRef .tc r) = W9 m ρ c (Proc.devRef .tc r) :=
  withArrays_keep spec4 launch4.win.arr_inj c _ _ r fun w e =>
    ((dat4 (V9 m ρ) c).arrAt_in w (Bool.eq_false_iff.mpr fun ho => h w ho e) _).trans (A_eq4 (V9 m ρ) c w)

/-- Unscoped, written by no host stretch, no launch's output array: held as launched at every boundary. -/
abbrev Kept (r : Ref sig .tc) : Prop :=
  ¬ (Proc.devRef .tc r : DevRef τ sig).isScoped ∧
  r ∉ hostOps0_W ∧
  (∀ w : Fin cfg0.W, (cfg0.win w).isOut = true → Pipeline.arrRef spec0 w ≠ r) ∧
  r ∉ hostOps1_W ∧
  (∀ w : Fin cfg1.W, (cfg1.win w).isOut = true → Pipeline.arrRef spec1 w ≠ r) ∧
  r ∉ hostOps2_W ∧
  (∀ w : Fin cfg2.W, (cfg2.win w).isOut = true → Pipeline.arrRef spec2 w ≠ r) ∧
  r ∉ hostOps3_W ∧
  (∀ w : Fin cfg3.W, (cfg3.win w).isOut = true → Pipeline.arrRef spec3 w ≠ r) ∧
  r ∉ hostOps4_W ∧
  (∀ w : Fin cfg4.W, (cfg4.win w).isOut = true → Pipeline.arrRef spec4 w ≠ r)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]
theorem kept_args : ∀ a ∈ argRefs, Kept a := by decide

variable (c : Dev nD) (r : Ref sig .tc)
theorem W0_arg : W0 m ρ c (Proc.devRef .tc r) = m ((c : Thread nD τ).loc r) := rfl
theorem W1_arg (h : r ∈ argRefs) : W1 m ρ c (Proc.devRef .tc r) = m ((c : Thread nD τ).loc r) :=
  (W1_keep m ρ c r (kept_args r h).2.1).trans (W0_arg m ρ c r)
theorem W2_arg (h : r ∈ argRefs) : W2 m ρ c (Proc.devRef .tc r) = m ((c : Thread nD τ).loc r) :=
  (W2_keep m ρ c r (kept_args r h).2.2.1).trans (W1_arg m ρ c r h)
theorem W3_arg (h : r ∈ argRefs) : W3 m ρ c (Proc.devRef .tc r) = m ((c : Thread nD τ).loc r) :=
  (W3_keep m ρ c r (kept_args r h).2.2.2.1).trans (W2_arg m ρ c r h)
theorem W4_arg (h : r ∈ argRefs) : W4 m ρ c (Proc.devRef .tc r) = m ((c : Thread nD τ).loc r) :=
  (W4_keep m ρ c r (kept_args r h).2.2.2.2.1).trans (W3_arg m ρ c r h)
theorem W5_arg (h : r ∈ argRefs) : W5 m ρ c (Proc.devRef .tc r) = m ((c : Thread nD τ).loc r) :=
  (W5_keep m ρ c r (kept_args r h).2.2.2.2.2.1).trans (W4_arg m ρ c r h)
theorem W6_arg (h : r ∈ argRefs) : W6 m ρ c (Proc.devRef .tc r) = m ((c : Thread nD τ).loc r) :=
  (W6_keep m ρ c r (kept_args r h).2.2.2.2.2.2.1).trans (W5_arg m ρ c r h)
theorem W7_arg (h : r ∈ argRefs) : W7 m ρ c (Proc.devRef .tc r) = m ((c : Thread nD τ).loc r) :=
  (W7_keep m ρ c r (kept_args r h).2.2.2.2.2.2.2.1).trans (W6_arg m ρ c r h)
theorem W8_arg (h : r ∈ argRefs) : W8 m ρ c (Proc.devRef .tc r) = m ((c : Thread nD τ).loc r) :=
  (W8_keep m ρ c r (kept_args r h).2.2.2.2.2.2.2.2.1).trans (W7_arg m ρ c r h)
theorem W9_arg (h : r ∈ argRefs) : W9 m ρ c (Proc.devRef .tc r) = m ((c : Thread nD τ).loc r) :=
  (W9_keep m ρ c r (kept_args r h).2.2.2.2.2.2.2.2.2.1).trans (W8_arg m ρ c r h)
theorem W10_arg (h : r ∈ argRefs) : W10 m ρ c (Proc.devRef .tc r) = m ((c : Thread nD τ).loc r) :=
  (W10_keep m ρ c r (kept_args r h).2.2.2.2.2.2.2.2.2.2).trans (W9_arg m ρ c r h)

end Cert.KernelIdeal.Hand

end
-- ==== Proof.KI.Frame.lean ====
import proofs.«420848_j14422500180474_3_alg».proof.Proof.KI.Run
import proofs.«420848_j14422500180474_3_alg».proof.Proof.KI.Args

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The run ends, faultless, with the result at the last boundary's contents and every argument as launched. -/
theorem run_result : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ ∀ a ∈ argRefs, r.2.mem ((c.tc : Thread nD τ).loc a) = m ((c.tc : Thread nD τ).loc a)) :=
  (θ_run defs _ _).mono (fun r h c =>
    ⟨h c _ (mem_uc main_v75 (by decide)),
      fun a ha => (h c _ (mem_uc a (kept_args a ha).1)).trans (W10_arg m ρ c a ha)⟩) (run_all m ρ)

end Cert.KernelIdeal.Hand

end
-- ==== Proof.KI.HostVal.lean ====
import proofs.«420848_j14422500180474_3_alg».proof.Proof.Gen.KernelIdeal.Launch
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
variable {F : FTy → Type} [FloatOps F]

def edgeRow0 (ei : IVec S2x1600000 32) : IVec S1600000 32 :=
  shapeCast S1600000 (extractStridedSlice S1x1600000 ![0, 0] ei slices_S2x1600000_S1x1600000_0_0) shapeCasts_S1x1600000_S1600000

def edgeRow1 (ei : IVec S2x1600000 32) : IVec S1600000 32 :=
  shapeCast S1600000 (extractStridedSlice S1x1600000 ![1, 0] ei slices_S2x1600000_S1x1600000_1_0) shapeCasts_S1x1600000_S1600000

def srcIds (ei : IVec S2x1600000 32) : IVec S1600000x1 32 :=
  broadcastInDim S1600000x1 ![0] bcast_S1600000_S1600000x1_0
    (select (cmpi .slt (edgeRow0 ei) (broadcastInDim S1600000 ![] bcast_S_S1600000 (constantI S_ 32 0#32)))
      (addi (edgeRow0 ei) (broadcastInDim S1600000 ![] bcast_S_S1600000 (constantI S_ 32 100000#32))) (edgeRow0 ei))

def dstIds (ei : IVec S2x1600000 32) : IVec S1600000x1 32 :=
  broadcastInDim S1600000x1 ![0] bcast_S1600000_S1600000x1_0 (edgeRow1 ei)

def edgeSumK (ei : IVec S2x1600000 32) (h : FVec F S100000x128 .bf16) : FVec F S100000x128 .f32 :=
  Host.scatterAdd scatter_S100000x128_S1600000x1_S1600000x128_1_0_0_1
    (broadcastInDim S100000x128 ![] bcast_S_S100000x128 (constant S_ .f32 0x00000000#32)) (dstIds ei)
    (extf .f32 (Host.gather gather_S100000x128_S1600000x1_S1600000x128_1_0_n_n_0_1_1128 h (srcIds ei)) bitsLt_bf16_f32)

def edgeCntK (ei : IVec S2x1600000 32) : FVec F S100000x1 .f32 :=
  Host.scatterAdd scatter_S100000x1_S1600000x1_S1600000x1_1_0_0_1
    (broadcastInDim S100000x1 ![] bcast_S_S100000x1 (constant S_ .f32 0x00000000#32)) (dstIds ei)
    (broadcastInDim S1600000x1 ![] bcast_S_S1600000x1 (constant S_ .f32 0x3F800000#32))

section Casts

variable {α : Type}
open Idealize.ShloMosaic.ValueIdx

theorem rowCast128 (v : S128.Idx → α) (q : Fin 128) : shapeCast S1x128 v shapeCasts_S128_S1x128 (ix2 (0 : Fin 1) q) = v (ix1 q) :=
  shapeCast_apply v _ _ _ (by rw [Shape.rowMajor_val_one, Shape.rowMajor_val_two]; simp [ix1, ix2])

theorem rowCast16 (v : S16.Idx → α) (q : Fin 16) : shapeCast S1x16 v shapeCasts_S16_S1x16 (ix2 (0 : Fin 1) q) = v (ix1 q) :=
  shapeCast_apply v _ _ _ (by rw [Shape.rowMajor_val_one, Shape.rowMajor_val_two]; simp [ix1, ix2])

theorem colCast (v : S100000.Idx → α) (n : Fin 100000) : shapeCast S100000x1 v shapeCasts_S100000_S100000x1 (ix2 n (0 : Fin 1)) = v (ix1 n) :=
  shapeCast_apply v _ _ _ (by rw [Shape.rowMajor_val_one, Shape.rowMajor_val_two]; simp [ix1, ix2])

end Casts

variable (V0 : Valuation τ sig (Elt F))
open Idealize.ShloMosaic.ValueIdx

theorem host0_v0 (q : Fin 128) : StableHlo.after hostOps0 V0 (Proc.devRef .tc main_v0) (ix2 (0 : Fin 1) q) = V0 (Proc.devRef .tc main_arg8) (ix1 q) := by
  have h : StableHlo.after hostOps0 V0 (Proc.devRef .tc main_v0) = (shapeCast S1x128 (V0 (Proc.devRef .tc main_arg8)) shapeCasts_S128_S1x128 : S1x128.Idx → _) := by
    after_results; rfl
  rw [h]; exact rowCast128 _ q

theorem host1_v2 (q : Fin 128) : StableHlo.after hostOps1 V0 (Proc.devRef .tc main_v2) (ix2 (0 : Fin 1) q) = V0 (Proc.devRef .tc main_arg10) (ix1 q) := by
  have h : StableHlo.after hostOps1 V0 (Proc.devRef .tc main_v2) = (shapeCast S1x128 (V0 (Proc.devRef .tc main_arg10)) shapeCasts_S128_S1x128 : S1x128.Idx → _) := by
    after_results; rfl
  rw [h]; exact rowCast128 _ q

theorem host3_v71 (n : Fin 100000) : StableHlo.after hostOps3 V0 (Proc.devRef .tc main_v71) (ix2 n (0 : Fin 1)) = V0 (Proc.devRef .tc main_arg6) (ix1 n) := by
  have h : StableHlo.after hostOps3 V0 (Proc.devRef .tc main_v71) = (shapeCast S100000x1 (V0 (Proc.devRef .tc main_arg6)) shapeCasts_S100000_S100000x1 : S100000x1.Idx → _) := by
    after_results; rfl
  rw [h]; exact colCast _ n

theorem host3_v72 (q : Fin 128) : StableHlo.after hostOps3 V0 (Proc.devRef .tc main_v72) (ix2 (0 : Fin 1) q) = V0 (Proc.devRef .tc main_arg12) (ix1 q) := by
  have h : StableHlo.after hostOps3 V0 (Proc.devRef .tc main_v72) = (shapeCast S1x128 (V0 (Proc.devRef .tc main_arg12)) shapeCasts_S128_S1x128 : S1x128.Idx → _) := by
    after_results; rfl
  rw [h]; exact rowCast128 _ q

theorem host4_v74 (o : Fin 16) : StableHlo.after hostOps4 V0 (Proc.devRef .tc main_v74) (ix2 (0 : Fin 1) o) = V0 (Proc.devRef .tc main_arg21) (ix1 o) := by
  have h : StableHlo.after hostOps4 V0 (Proc.devRef .tc main_v74) = (shapeCast S1x16 (V0 (Proc.devRef .tc main_arg21)) shapeCasts_S16_S1x16 : S1x16.Idx → _) := by
    after_results; rfl
  rw [h]; exact rowCast16 _ o

set_option maxHeartbeats 8000000 in
theorem host2_v18 : StableHlo.after hostOps2 V0 (Proc.devRef .tc main_v18) = edgeSumK (F := F) (V0 (Proc.devRef .tc main_arg2)) (V0 (Proc.devRef .tc main_v1_1)) := by
  simp only [hostOps2]
  after_results_simp
  rfl

set_option maxHeartbeats 8000000 in
theorem host2_v24 : StableHlo.after hostOps2 V0 (Proc.devRef .tc main_v24) = edgeCntK (F := F) (V0 (Proc.devRef .tc main_arg2)) := by
  simp only [hostOps2]
  after_results_simp
  rfl

set_option maxHeartbeats 8000000 in
theorem host2_v39 : StableHlo.after hostOps2 V0 (Proc.devRef .tc main_v39) = edgeSumK (F := F) (V0 (Proc.devRef .tc main_arg3)) (V0 (Proc.devRef .tc main_v3_1)) := by
  simp only [hostOps2]
  after_results_simp
  rfl

set_option maxHeartbeats 8000000 in
theorem host2_v45 : StableHlo.after hostOps2 V0 (Proc.devRef .tc main_v45) = edgeCntK (F := F) (V0 (Proc.devRef .tc main_arg3)) := by
  simp only [hostOps2]
  after_results_simp
  rfl

set_option maxHeartbeats 8000000 in
theorem host2_v60 : StableHlo.after hostOps2 V0 (Proc.devRef .tc main_v60) = edgeSumK (F := F) (V0 (Proc.devRef .tc main_arg4)) (V0 (Proc.devRef .tc main_v1_1)) := by
  simp only [hostOps2]
  after_results_simp
  rfl

set_option maxHeartbeats 8000000 in
theorem host2_v66 : StableHlo.after hostOps2 V0 (Proc.devRef .tc main_v66) = edgeCntK (F := F) (V0 (Proc.devRef .tc main_arg4)) := by
  simp only [hostOps2]
  after_results_simp
  rfl

set_option maxHeartbeats 8000000 in
theorem host2_v67 (n : Fin 100000) : StableHlo.after hostOps2 V0 (Proc.devRef .tc main_v67) (ix2 n (0 : Fin 1)) = V0 (Proc.devRef .tc main_arg5) (ix1 n) := by
  have h : StableHlo.after hostOps2 V0 (Proc.devRef .tc main_v67) = (shapeCast S100000x1 (V0 (Proc.devRef .tc main_arg5)) shapeCasts_S100000_S100000x1 : S100000x1.Idx → _) := by
    simp only [hostOps2]
    after_results_simp
    rfl
  rw [h]; exact colCast _ n

set_option maxHeartbeats 8000000 in
theorem host2_v68 (q : Fin 128) : StableHlo.after hostOps2 V0 (Proc.devRef .tc main_v68) (ix2 (0 : Fin 1) q) = V0 (Proc.devRef .tc main_arg15) (ix1 q) := by
  have h : StableHlo.after hostOps2 V0 (Proc.devRef .tc main_v68) = (shapeCast S1x128 (V0 (Proc.devRef .tc main_arg15)) shapeCasts_S128_S1x128 : S1x128.Idx → _) := by
    simp only [hostOps2]
    after_results_simp
    rfl
  rw [h]; exact rowCast128 _ q

set_option maxHeartbeats 8000000 in
theorem host2_v69 (q : Fin 128) : StableHlo.after hostOps2 V0 (Proc.devRef .tc main_v69) (ix2 (0 : Fin 1) q) = V0 (Proc.devRef .tc main_arg18) (ix1 q) := by
  have h : StableHlo.after hostOps2 V0 (Proc.devRef .tc main_v69) = (shapeCast S1x128 (V0 (Proc.devRef .tc main_arg18)) shapeCasts_S128_S1x128 : S1x128.Idx → _) := by
    simp only [hostOps2]
    after_results_simp
    rfl
  rw [h]; exact rowCast128 _ q

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (r c : Nat) : Type := (⟨2, ![r, c]⟩ : Shape).Idx → EReal

abbrev one : EReal := Ideal.ofBits .f32 0x3F800000#32

abbrev half : EReal := Ideal.ofBits .f32 0x3F000000#32

def linC {N K : Nat} (x : Mat N K) (w : Mat K 128) (b : Fin 128 → EReal) (p : Fin N) (q : Fin 128) : EReal :=
  (∑ k : Fin K, x (ix2 p k) * w (ix2 k q)) + b q

def lin {N K : Nat} (x : Mat N K) (w : Mat K 128) (b : Fin 128 → EReal) : Mat N 128 :=
  fun i => linC x w b (i 0) (i 1)

theorem lin_apply {N K : Nat} (x : Mat N K) (w : Mat K 128) (b : Fin 128 → EReal) (p : Fin N) (q : Fin 128) :
    lin x w b (ix2 p q) = linC x w b p q := rfl

def sageC {N : Nat} (s : Mat N 128) (cnt : Fin N → EReal) (wl : Mat 128 128) (bl : Fin 128 → EReal)
    (xd : Mat N 128) (wr : Mat 128 128) (p : Fin N) (q : Fin 128) : EReal :=
  ((∑ k : Fin 128, Ideal.div (s (ix2 p k)) (max (cnt p) one) * wl (ix2 k q)) + bl q)
    + ∑ k : Fin 128, xd (ix2 p k) * wr (ix2 k q)

def sage {N : Nat} (s : Mat N 128) (cnt : Fin N → EReal) (wl : Mat 128 128) (bl : Fin 128 → EReal)
    (xd : Mat N 128) (wr : Mat 128 128) : Mat N 128 :=
  fun i => sageC s cnt wl bl xd wr (i 0) (i 1)

theorem sage_apply {N : Nat} (s : Mat N 128) (cnt : Fin N → EReal) (wl : Mat 128 128) (bl : Fin 128 → EReal)
    (xd : Mat N 128) (wr : Mat 128 128) (p : Fin N) (q : Fin 128) :
    sage s cnt wl bl xd wr (ix2 p q) = sageC s cnt wl bl xd wr p q := rfl

def relu2 {N : Nat} (m1 m2 : Mat N 128) : Mat N 128 := fun i => max (half * (m1 i + m2 i)) 0

def relu1 {N : Nat} (m : Mat N 128) : Mat N 128 := fun i => max (m i) 0

def poolC {N : Nat} (x : Mat N 128) (batch : Fin N → BitVec 32) (g : Fin 256) (q : Fin 128) : EReal :=
  Ideal.div (∑ n ∈ Finset.univ.filter (fun n : Fin N => (batch n).toInt = (g.val : ℤ)), x (ix2 n q))
    (max (∑ _n ∈ Finset.univ.filter (fun n : Fin N => (batch n).toInt = (g.val : ℤ)), one) one)

def pool {N : Nat} (x : Mat N 128) (batch : Fin N → BitVec 32) : Mat 256 128 :=
  fun j => poolC x batch (j 0) (j 1)

theorem pool_apply {N : Nat} (x : Mat N 128) (batch : Fin N → BitVec 32) (g : Fin 256) (q : Fin 128) :
    pool x batch (ix2 g q) = poolC x batch g q := rfl

def headC (pa pb : Mat 256 128) (w : Mat 128 16) (b : Fin 16 → EReal) (g : Fin 256) (o : Fin 16) : EReal :=
  (∑ k : Fin 128, (half * (pa (ix2 g k) + pb (ix2 g k))) * w (ix2 k o)) + b o

def head (pa pb : Mat 256 128) (w : Mat 128 16) (b : Fin 16 → EReal) : Mat 256 16 :=
  fun j => headC pa pb w b (j 0) (j 1)

theorem head_apply (pa pb : Mat 256 128) (w : Mat 128 16) (b : Fin 16 → EReal) (g : Fin 256) (o : Fin 16) :
    head pa pb w b (ix2 g o) = headC pa pb w b g o := rfl

def net (xa : Mat 100000 64) (xb : Mat 100000 32)
    (wa : Mat 64 128) (ba : Fin 128 → EReal) (wb : Mat 32 128) (bb : Fin 128 → EReal)
    (Eab Eba Eaa : Mat 100000 128 → Mat 100000 128) (Cab Cba Caa : Fin 100000 → EReal)
    (wlab : Mat 128 128) (blab : Fin 128 → EReal) (wrab : Mat 128 128)
    (wlba : Mat 128 128) (blba : Fin 128 → EReal) (wrba : Mat 128 128)
    (wlaa : Mat 128 128) (blaa : Fin 128 → EReal) (wraa : Mat 128 128)
    (batcha batchb : Fin 100000 → BitVec 32) (wout : Mat 128 16) (bout : Fin 16 → EReal) : Mat 256 16 :=
  let ha := lin xa wa ba
  let hb := lin xb wb bb
  let pa := pool (relu2 (sage (Eba hb) Cba wlba blba ha wrba) (sage (Eaa ha) Caa wlaa blaa ha wraa)) batcha
  let pb := pool (relu1 (sage (Eab ha) Cab wlab blab hb wrab)) batchb
  head pa pb wout bout

end Cert.Spec

end
-- ==== Proof.KI.Val0.lean ====
import proofs.«420848_j14422500180474_3_alg».proof.Proof.KI.Dat0
import proofs.«420848_j14422500180474_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem lhs_k0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl

theorem lhs_k0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q

theorem rhs_k0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q

theorem rhs_k0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem matmul0_apply {φ₁ φ₂ : FTy} (a : FVec Ideal S5000x64 φ₁) (b : FVec Ideal S64x128 φ₂) (r : Fin 5000) (q : Fin 128) :
    matmul dot_S5000x64_S64x128_S5000x128_1_0_0_1_n_n none a b (constant (F := Ideal) S5000x128 .f32 0x00000000#32) (ix2 r q)
      = ∑ k : Fin 64, a (ix2 r k) * b (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 r q) ((contrEquiv1 dot_S5000x64_S64x128_S5000x128_1_0_0_1_n_n 64 rfl rfl).symm k) = ix2 r k := funext fun a => Fin.ext (by
    match a with
    | ⟨0, _⟩ => exact lhs_k0_0 _ _
    | ⟨1, _⟩ => exact (lhs_k0_1 _ _).trans hk)
  have er : dot_S5000x64_S64x128_S5000x128_1_0_0_1_n_n.rhsIdx (ix2 r q) ((contrEquiv1 dot_S5000x64_S64x128_S5000x128_1_0_0_1_n_n 64 rfl rfl).symm k) = ix2 k q := funext fun a => Fin.ext (by
    match a with
    | ⟨0, _⟩ => exact (rhs_k0_0 _ _).trans hk
    | ⟨1, _⟩ => exact rhs_k0_1 _ _)
  rw [el, er]

theorem k0_pay1_apply (x0 : Vec Ideal S5000x64 .f32) (x1 : Vec Ideal S64x128 .f32) (x2 : Vec Ideal S1x128 .f32)
    (r : Fin 5000) (q : Fin 128) :
    k0_pay1 x0 x1 x2 (ix2 r q) = (∑ k : Fin 64, x0 (ix2 r k) * x1 (ix2 k q)) + x2 (ix2 (0 : Fin 1) q) := by
  unfold k0_pay1
  rw [addf_apply, matmul0_apply, shapeCast_self, broadcastTo_1b_ab_apply]
  simp only [truncf_apply]

variable (V : (c : Dev nD) → (b : Ref sig .tc) → Buf (Elt Ideal) ((c : Thread nD τ).loc b))

theorem zero_offsets : (![0, 0] : Fin 2 → Nat) = fun _ => 0 := funext fun a => by fin_cases a <;> rfl

abbrev lin0 (c : Dev nD) : Cert.Spec.Mat 100000 128 :=
  Cert.Spec.lin (V c main_arg0) (V c main_arg7) (fun q => V c main_v0 (ix2 (0 : Fin 1) q))

theorem pay0_rows (x0 : Vec Ideal S5000x64 .f32) (x1 : Vec Ideal S64x128 .f32) (x2 : Vec Ideal S1x128 .f32)
    (A : Cert.Spec.Mat 100000 64) (W : Cert.Spec.Mat 64 128) (B : Cert.Spec.Mat 1 128) (n : Nat)
    (h0 : ∀ (y : S5000x64.Idx) (i : (⟨2, ![100000, 64]⟩ : Shape).Idx),
      (i 0).val = n * 5000 + (y 0).val → (i 1).val = (y 1).val → x0 y = A i)
    (h1 : ∀ y : S64x128.Idx, x1 y = W y) (h2 : ∀ y : S1x128.Idx, x2 y = B y)
    (y : S5000x128.Idx) (i : (⟨2, ![100000, 128]⟩ : Shape).Idx)
    (hi0 : (i 0).val = n * 5000 + (y 0).val) (hi1 : (i 1).val = (y 1).val) :
    k0_pay1 x0 x1 x2 y = Cert.Spec.lin A W (fun q => B (ix2 (0 : Fin 1) q)) i := by
  obtain ⟨r, q, rfl⟩ : ∃ (r : Fin 5000) (q : Fin 128), y = ix2 r q := ⟨y 0, y 1, eq_ix2 y⟩
  have hq : i 1 = q := Fin.ext hi1
  rw [k0_pay1_apply]
  show _ = (∑ k : Fin 64, A (ix2 (i 0) k) * W (ix2 k (i 1))) + B (ix2 (0 : Fin 1) (i 1))
  rw [hq, h2 (ix2 (0 : Fin 1) q)]
  congr 1
  exact Finset.sum_congr rfl fun k _ => by rw [h0 (ix2 r k) (ix2 (i 0) k) hi0 rfl, h1]

theorem pay0_rows' (x0 : Vec Ideal S5000x64 .f32) (x1 : Vec Ideal S64x128 .f32) (x2 : Vec Ideal S1x128 .f32)
    (A : Cert.Spec.Mat 100000 64) (W : Cert.Spec.Mat 64 128) (B : Cert.Spec.Mat 1 128) (n : Nat)
    (h0 : ∀ (y : S5000x64.Idx) (i : (⟨2, ![100000, 64]⟩ : Shape).Idx),
      (i 0).val = n * 5000 + (y 0).val → (i 1).val = (y 1).val → x0 y = A i)
    (h1 : ∀ y : S64x128.Idx, x1 y = W y) (h2 : ∀ y : S1x128.Idx, x2 y = B y)
    (y : S5000x128.Idx) (i : (⟨2, ![100000, 128]⟩ : Shape).Idx)
    (hi0 : (i 0).val = n * 5000 + (y 0).val) (hi1 : (i 1).val = (y 1).val) :
    k0_pay2 x0 x1 x2 y = Cert.Spec.lin A W (fun q => B (ix2 (0 : Fin 1) q)) i := by
  unfold k0_pay2
  rw [truncf_apply]
  exact pay0_rows x0 x1 x2 A W B n h0 h1 h2 y i hi0 hi1

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem iblk0_0_apply (c : Dev nD) (t : Fin cfg0.N) (y : S5000x64.Idx) (i : (⟨2, ![100000, 64]⟩ : Shape).Idx)
    (h0 : (i 0).val = t.val * 5000 + (y 0).val) (h1 : (i 1).val = (y 1).val) :
    (iblk0 V c 0 t : Vec Ideal S5000x64 .f32) y = (V c main_arg0 : Cert.Spec.Mat 100000 64) i := by
  obtain ⟨e00, e01, -⟩ := idx_facts0 t
  show V c main_arg0 (((cfg0.win 0).blk t).view.emb y) = V c main_arg0 i
  refine congrArg _ (funext fun a => Fin.ext ?_)
  match a with
  | ⟨0, _⟩ => show win0_0.index t (0 : Fin 2) * 5000 + 1 * (y 0).val = (i 0).val; rw [e00, h0]; omega
  | ⟨1, _⟩ => show win0_0.index t (1 : Fin 2) * 64 + 1 * (y 1).val = (i 1).val; rw [e01, h1]; omega

theorem iblk0_1_apply (c : Dev nD) (t : Fin cfg0.N) (y : S64x128.Idx) :
    (iblk0 V c 1 t : Vec Ideal S64x128 .f32) y = (V c main_arg7 : Cert.Spec.Mat 64 128) y := by
  obtain ⟨-, -, e10, e11, -⟩ := idx_facts0 t
  show V c main_arg7 (((cfg0.win 1).blk t).view.emb y) = V c main_arg7 y
  refine congrArg _ (funext fun a => Fin.ext ?_)
  match a with
  | ⟨0, _⟩ => show win0_1.index t (0 : Fin 2) * 64 + 1 * (y 0).val = (y 0).val; rw [e10]; omega
  | ⟨1, _⟩ => show win0_1.index t (1 : Fin 2) * 128 + 1 * (y 1).val = (y 1).val; rw [e11]; omega

theorem iblk0_2_apply (c : Dev nD) (t : Fin cfg0.N) (y : S1x128.Idx) :
    (iblk0 V c 2 t : Vec Ideal S1x128 .f32) y = (V c main_v0 : Cert.Spec.Mat 1 128) y := by
  obtain ⟨-, -, -, -, e20, e21, -⟩ := idx_facts0 t
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; rw [e20]; omega
  | ⟨1, _⟩ => show win0_2.index t (1 : Fin 2) * 128 + 1 * (y 1).val = (y 1).val; rw [e21]; omega

theorem flushed0_3_eq (c : Dev nD) (t : Fin cfg0.N) :
    (dat0 (F := Ideal) V c).flushed 3 t = ((cfg0.win 3).blk t).view.read (Elt Ideal) (lin0 V c) := by
  show (cfg0.win 3).cut (grid0.coords t) ((dat0 V c).after 3 t) = _
  rw [after0_3]
  unfold out0_3
  rw [View.canon_unit_zero zero_offsets]
  simp only [View.ld_unit_zero (S := S5000x64) zero_offsets, View.ld_unit_zero (S := S64x128) zero_offsets, View.ld_unit_zero (S := S1x128) zero_offsets]
  obtain ⟨-, -, -, -, -, -, e30, e31, -⟩ := idx_facts0 t
  funext j
  show k0_pay1 (iblk0 V c 0 t) (iblk0 V c 1 t) (iblk0 V c 2 t) j = lin0 V c (((cfg0.win 3).blk t).view.emb j)
  refine pay0_rows (iblk0 V c 0 t) (iblk0 V c 1 t) (iblk0 V c 2 t) (V c main_arg0) (V c main_arg7) (V c main_v0) t.val
    (iblk0_0_apply V c t) (iblk0_1_apply V c t) (iblk0_2_apply V c t) j (((cfg0.win 3).blk t).view.emb j) ?_ ?_
  · show win0_3.index t (0 : Fin 2) * 5000 + 1 * (j 0).val = t.val * 5000 + (j 0).val; omega
  · show win0_3.index t (1 : Fin 2) * 128 + 1 * (j 1).val = (j 1).val; omega

theorem flushed0_4_eq (c : Dev nD) (t : Fin cfg0.N) :
    (dat0 (F := Ideal) V c).flushed 4 t = ((cfg0.win 4).blk t).view.read (Elt Ideal) (lin0 V c) := by
  show (cfg0.win 4).cut (grid0.coords t) ((dat0 V c).after 4 t) = _
  rw [after0_4]
  unfold out0_4
  rw [View.canon_unit_zero zero_offsets]
  simp only [View.ld_unit_zero (S := S5000x64) zero_offsets, View.ld_unit_zero (S := S64x128) zero_offsets, View.ld_unit_zero (S := S1x128) zero_offsets]
  obtain ⟨-, -, -, -, -, -, -, -, e40, e41⟩ := idx_facts0 t
  funext j
  show k0_pay2 (iblk0 V c 0 t) (iblk0 V c 1 t) (iblk0 V c 2 t) j = lin0 V c (((cfg0.win 4).blk t).view.emb j)
  refine pay0_rows' (iblk0 V c 0 t) (iblk0 V c 1 t) (iblk0 V c 2 t) (V c main_arg0) (V c main_arg7) (V c main_v0) t.val
    (iblk0_0_apply V c t) (iblk0_1_apply V c t) (iblk0_2_apply V c t) j (((cfg0.win 4).blk t).view.emb j) ?_ ?_
  · show win0_4.index t (0 : Fin 2) * 5000 + 1 * (j 0).val = t.val * 5000 + (j 0).val; omega
  · show win0_4.index t (1 : Fin 2) * 128 + 1 * (j 1).val = (j 1).val; omega

theorem mem_blk0_3 (t : Fin cfg0.N) (i : (⟨2, ![100000, 128]⟩ : Shape).Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1_0).slice (win0_3.rect t)).set ↔ _
  rw [View.set_slice_whole, Rect.mem_set_unit]
  exact Iff.rfl

theorem mem_blk0_4 (t : Fin cfg0.N) (i : (⟨2, ![100000, 128]⟩ : Shape).Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v1_1).slice (win0_4.rect t)).set ↔ _
  rw [View.set_slice_whole, Rect.mem_set_unit]
  exact Iff.rfl

theorem covered0_3 (i : (⟨2, ![100000, 128]⟩ : Shape).Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e30, e31, -⟩ := idx_facts0 ⟨(i 0).val / 5000, ht⟩
  have f0 : win0_3.index ⟨(i 0).val / 5000, ht⟩ (0 : Fin 2) = (i 0).val / 5000 := e30
  have f1 : win0_3.index ⟨(i 0).val / 5000, ht⟩ (1 : Fin 2) = 0 := e31
  refine ⟨⟨(i 0).val / 5000, ht⟩, flush0_3 _, ?_⟩
  rw [mem_blk0_3]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    omega

theorem covered0_4 (i : (⟨2, ![100000, 128]⟩ : Shape).Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, e40, e41⟩ := idx_facts0 ⟨(i 0).val / 5000, ht⟩
  have f0 : win0_4.index ⟨(i 0).val / 5000, ht⟩ (0 : Fin 2) = (i 0).val / 5000 := e40
  have f1 : win0_4.index ⟨(i 0).val / 5000, ht⟩ (1 : Fin 2) = 0 := e41
  refine ⟨⟨(i 0).val / 5000, ht⟩, flush0_4 _, ?_⟩
  rw [mem_blk0_4]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    omega
  | ⟨1, _⟩ =>
    show win0_4.index ⟨(i 0).val / 5000, ht⟩ (1 : Fin 2) * 128 ≤ (i 1).val ∧ (i 1).val < win0_4.index ⟨(i 0).val / 5000, ht⟩ (1 : Fin 2) * 128 + 128
    omega

theorem arr0_3 (c : Dev nD) : (dat0 (F := Ideal) V c).arrAt 3 cfg0.N
    = Cert.Spec.lin (V c main_arg0) (V c main_arg7) (fun q => V c main_v0 (ix2 (0 : Fin 1) q)) :=
  (dat0 V c).arrAt_eq_of_cover 3 (lin0 V c) (fun t _ => flushed0_3_eq V c t) (covered0_3)

theorem arr0_4 (c : Dev nD) : (dat0 (F := Ideal) V c).arrAt 4 cfg0.N
    = Cert.Spec.lin (V c main_arg0) (V c main_arg7) (fun q => V c main_v0 (ix2 (0 : Fin 1) q)) :=
  (dat0 V c).arrAt_eq_of_cover 4 (lin0 V c) (fun t _ => flushed0_4_eq V c t) (covered0_4)

end Cert.KernelIdeal.Hand

end
-- ==== Proof.KI.Val1.lean ====
import proofs.«420848_j14422500180474_3_alg».proof.Proof.KI.Dat1
import proofs.«420848_j14422500180474_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem lhs_k1_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl

theorem lhs_k1_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q

theorem rhs_k1_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q

theorem rhs_k1_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

theorem matmul1_apply {φ₁ φ₂ : FTy} (a : FVec Ideal S5000x32 φ₁) (b : FVec Ideal S32x128 φ₂) (r : Fin 5000) (q : Fin 128) :
    matmul dot_S5000x32_S32x128_S5000x128_1_0_0_1_n_n none a b (constant (F := Ideal) S5000x128 .f32 0x00000000#32) (ix2 r q)
      = ∑ k : Fin 32, a (ix2 r k) * b (ix2 k q) := by
  simp only [matmul]
  rw [Ideal.matmul_constant_zero_apply, ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 r q) ((contrEquiv1 dot_S5000x32_S32x128_S5000x128_1_0_0_1_n_n 32 rfl rfl).symm k) = ix2 r k := funext fun a => Fin.ext (by
    match a with
    | ⟨0, _⟩ => exact lhs_k1_0 _ _
    | ⟨1, _⟩ => exact (lhs_k1_1 _ _).trans hk)
  have er : dot_S5000x32_S32x128_S5000x128_1_0_0_1_n_n.rhsIdx (ix2 r q) ((contrEquiv1 dot_S5000x32_S32x128_S5000x128_1_0_0_1_n_n 32 rfl rfl).symm k) = ix2 k q := funext fun a => Fin.ext (by
    match a with
    | ⟨0, _⟩ => exact (rhs_k1_0 _ _).trans hk
    | ⟨1, _⟩ => exact rhs_k1_1 _ _)
  rw [el, er]

theorem k1_pay1_apply (x0 : Vec Ideal S5000x32 .f32) (x1 : Vec Ideal S32x128 .f32) (x2 : Vec Ideal S1x128 .f32)
    (r : Fin 5000) (q : Fin 128) :
    k1_pay1 x0 x1 x2 (ix2 r q) = (∑ k : Fin 32, x0 (ix2 r k) * x1 (ix2 k q)) + x2 (ix2 (0 : Fin 1) q) := by
  unfold k1_pay1
  rw [addf_apply, matmul1_apply, shapeCast_self, broadcastTo_1b_ab_apply]
  simp only [truncf_apply]

variable (V : (c : Dev nD) → (b : Ref sig .tc) → Buf (Elt Ideal) ((c : Thread nD τ).loc b))

theorem zero_offsets1 : (![0, 0] : Fin 2 → Nat) = fun _ => 0 := funext fun a => by fin_cases a <;> rfl

abbrev lin1 (c : Dev nD) : Cert.Spec.Mat 100000 128 :=
  Cert.Spec.lin (V c main_arg1) (V c main_arg9) (fun q => V c main_v2 (ix2 (0 : Fin 1) q))

theorem pay1_rows (x0 : Vec Ideal S5000x32 .f32) (x1 : Vec Ideal S32x128 .f32) (x2 : Vec Ideal S1x128 .f32)
    (A : Cert.Spec.Mat 100000 32) (W : Cert.Spec.Mat 32 128) (B : Cert.Spec.Mat 1 128) (n : Nat)
    (h0 : ∀ (y : S5000x32.Idx) (i : (⟨2, ![100000, 32]⟩ : Shape).Idx),
      (i 0).val = n * 5000 + (y 0).val → (i 1).val = (y 1).val → x0 y = A i)
    (h1 : ∀ y : S32x128.Idx, x1 y = W y) (h2 : ∀ y : S1x128.Idx, x2 y = B y)
    (y : S5000x128.Idx) (i : (⟨2, ![100000, 128]⟩ : Shape).Idx)
    (hi0 : (i 0).val = n * 5000 + (y 0).val) (hi1 : (i 1).val = (y 1).val) :
    k1_pay1 x0 x1 x2 y = Cert.Spec.lin A W (fun q => B (ix2 (0 : Fin 1) q)) i := by
  obtain ⟨r, q, rfl⟩ : ∃ (r : Fin 5000) (q : Fin 128), y = ix2 r q := ⟨y 0, y 1, eq_ix2 y⟩
  have hq : i 1 = q := Fin.ext hi1
  rw [k1_pay1_apply]
  show _ = (∑ k : Fin 32, A (ix2 (i 0) k) * W (ix2 k (i 1))) + B (ix2 (0 : Fin 1) (i 1))
  rw [hq, h2 (ix2 (0 : Fin 1) q)]
  congr 1
  exact Finset.sum_congr rfl fun k _ => by rw [h0 (ix2 r k) (ix2 (i 0) k) hi0 rfl, h1]

theorem pay1_rows' (x0 : Vec Ideal S5000x32 .f32) (x1 : Vec Ideal S32x128 .f32) (x2 : Vec Ideal S1x128 .f32)
    (A : Cert.Spec.Mat 100000 32) (W : Cert.Spec.Mat 32 128) (B : Cert.Spec.Mat 1 128) (n : Nat)
    (h0 : ∀ (y : S5000x32.Idx) (i : (⟨2, ![100000, 32]⟩ : Shape).Idx),
      (i 0).val = n * 5000 + (y 0).val → (i 1).val = (y 1).val → x0 y = A i)
    (h1 : ∀ y : S32x128.Idx, x1 y = W y) (h2 : ∀ y : S1x128.Idx, x2 y = B y)
    (y : S5000x128.Idx) (i : (⟨2, ![100000, 128]⟩ : Shape).Idx)
    (hi0 : (i 0).val = n * 5000 + (y 0).val) (hi1 : (i 1).val = (y 1).val) :
    k1_pay2 x0 x1 x2 y = Cert.Spec.lin A W (fun q => B (ix2 (0 : Fin 1) q)) i := by
  unfold k1_pay2
  rw [truncf_apply]
  exact pay1_rows x0 x1 x2 A W B n h0 h1 h2 y i hi0 hi1

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem iblk1_0_apply (c : Dev nD) (t : Fin cfg1.N) (y : S5000x32.Idx) (i : (⟨2, ![100000, 32]⟩ : Shape).Idx)
    (h0 : (i 0).val = t.val * 5000 + (y 0).val) (h1 : (i 1).val = (y 1).val) :
    (iblk1 V c 0 t : Vec Ideal S5000x32 .f32) y = (V c main_arg1 : Cert.Spec.Mat 100000 32) i := by
  obtain ⟨e00, e01, -⟩ := idx_facts1 t
  show V c main_arg1 (((cfg1.win 0).blk t).view.emb y) = V c main_arg1 i
  refine congrArg _ (funext fun a => Fin.ext ?_)
  match a with
  | ⟨0, _⟩ => show win1_0.index t (0 : Fin 2) * 5000 + 1 * (y 0).val = (i 0).val; rw [e00, h0]; omega
  | ⟨1, _⟩ => show win1_0.index t (1 : Fin 2) * 32 + 1 * (y 1).val = (i 1).val; rw [e01, h1]; omega

theorem iblk1_1_apply (c : Dev nD) (t : Fin cfg1.N) (y : S32x128.Idx) :
    (iblk1 V c 1 t : Vec Ideal S32x128 .f32) y = (V c main_arg9 : Cert.Spec.Mat 32 128) y := by
  obtain ⟨-, -, e10, e11, -⟩ := idx_facts1 t
  show V c main_arg9 (((cfg1.win 1).blk t).view.emb y) = V c main_arg9 y
  refine congrArg _ (funext fun a => Fin.ext ?_)
  match a with
  | ⟨0, _⟩ => show win1_1.index t (0 : Fin 2) * 32 + 1 * (y 0).val = (y 0).val; rw [e10]; omega
  | ⟨1, _⟩ => show win1_1.index t (1 : Fin 2) * 128 + 1 * (y 1).val = (y 1).val; rw [e11]; omega

theorem iblk1_2_apply (c : Dev nD) (t : Fin cfg1.N) (y : S1x128.Idx) :
    (iblk1 V c 2 t : Vec Ideal S1x128 .f32) y = (V c main_v2 : Cert.Spec.Mat 1 128) y := by
  obtain ⟨-, -, -, -, e20, e21, -⟩ := idx_facts1 t
  show V c main_v2 (((cfg1.win 2).blk t).view.emb y) = V c main_v2 y
  refine congrArg _ (funext fun a => Fin.ext ?_)
  match a with
  | ⟨0, _⟩ => show win1_2.index t (0 : Fin 2) * 1 + 1 * (y 0).val = (y 0).val; rw [e20]; omega
  | ⟨1, _⟩ => show win1_2.index t (1 : Fin 2) * 128 + 1 * (y 1).val = (y 1).val; rw [e21]; omega

theorem flushed1_3_eq (c : Dev nD) (t : Fin cfg1.N) :
    (dat1 (F := Ideal) V c).flushed 3 t = ((cfg1.win 3).blk t).view.read (Elt Ideal) (lin1 V c) := by
  show (cfg1.win 3).cut (grid1.coords t) ((dat1 V c).after 3 t) = _
  rw [after1_3]
  unfold out1_3
  rw [View.canon_unit_zero zero_offsets1]
  simp only [View.ld_unit_zero (S := S5000x32) zero_offsets1, View.ld_unit_zero (S := S32x128) zero_offsets1, View.ld_unit_zero (S := S1x128) zero_offsets1]
  obtain ⟨-, -, -, -, -, -, e30, e31, -⟩ := idx_facts1 t
  funext j
  show k1_pay1 (iblk1 V c 0 t) (iblk1 V c 1 t) (iblk1 V c 2 t) j = lin1 V c (((cfg1.win 3).blk t).view.emb j)
  refine pay1_rows (iblk1 V c 0 t) (iblk1 V c 1 t) (iblk1 V c 2 t) (V c main_arg1) (V c main_arg9) (V c main_v2) t.val
    (iblk1_0_apply V c t) (iblk1_1_apply V c t) (iblk1_2_apply V c t) j (((cfg1.win 3).blk t).view.emb j) ?_ ?_
  · show win1_3.index t (0 : Fin 2) * 5000 + 1 * (j 0).val = t.val * 5000 + (j 0).val; omega
  · show win1_3.index t (1 : Fin 2) * 128 + 1 * (j 1).val = (j 1).val; omega

theorem flushed1_4_eq (c : Dev nD) (t : Fin cfg1.N) :
    (dat1 (F := Ideal) V c).flushed 4 t = ((cfg1.win 4).blk t).view.read (Elt Ideal) (lin1 V c) := by
  show (cfg1.win 4).cut (grid1.coords t) ((dat1 V c).after 4 t) = _
  rw [after1_4]
  unfold out1_4
  rw [View.canon_unit_zero zero_offsets1]
  simp only [View.ld_unit_zero (S := S5000x32) zero_offsets1, View.ld_unit_zero (S := S32x128) zero_offsets1, View.ld_unit_zero (S := S1x128) zero_offsets1]
  obtain ⟨-, -, -, -, -, -, -, -, e40, e41⟩ := idx_facts1 t
  funext j
  show k1_pay2 (iblk1 V c 0 t) (iblk1 V c 1 t) (iblk1 V c 2 t) j = lin1 V c (((cfg1.win 4).blk t).view.emb j)
  refine pay1_rows' (iblk1 V c 0 t) (iblk1 V c 1 t) (iblk1 V c 2 t) (V c main_arg1) (V c main_arg9) (V c main_v2) t.val
    (iblk1_0_apply V c t) (iblk1_1_apply V c t) (iblk1_2_apply V c t) j (((cfg1.win 4).blk t).view.emb j) ?_ ?_
  · show win1_4.index t (0 : Fin 2) * 5000 + 1 * (j 0).val = t.val * 5000 + (j 0).val; omega
  · show win1_4.index t (1 : Fin 2) * 128 + 1 * (j 1).val = (j 1).val; omega

theorem mem_blk1_3 (t : Fin cfg1.N) (i : (⟨2, ![100000, 128]⟩ : Shape).Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v3_0).slice (win1_3.rect t)).set ↔ _
  rw [View.set_slice_whole, Rect.mem_set_unit]
  exact Iff.rfl

theorem mem_blk1_4 (t : Fin cfg1.N) (i : (⟨2, ![100000, 128]⟩ : Shape).Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v3_1).slice (win1_4.rect t)).set ↔ _
  rw [View.set_slice_whole, Rect.mem_set_unit]
  exact Iff.rfl

theorem covered1_3 (i : (⟨2, ![100000, 128]⟩ : Shape).Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, e30, e31, -⟩ := idx_facts1 ⟨(i 0).val / 5000, ht⟩
  have f0 : win1_3.index ⟨(i 0).val / 5000, ht⟩ (0 : Fin 2) = (i 0).val / 5000 := e30
  have f1 : win1_3.index ⟨(i 0).val / 5000, ht⟩ (1 : Fin 2) = 0 := e31
  refine ⟨⟨(i 0).val / 5000, ht⟩, flush1_3 _, ?_⟩
  rw [mem_blk1_3]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    omega

theorem covered1_4 (i : (⟨2, ![100000, 128]⟩ : Shape).Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, e40, e41⟩ := idx_facts1 ⟨(i 0).val / 5000, ht⟩
  have f0 : win1_4.index ⟨(i 0).val / 5000, ht⟩ (0 : Fin 2) = (i 0).val / 5000 := e40
  have f1 : win1_4.index ⟨(i 0).val / 5000, ht⟩ (1 : Fin 2) = 0 := e41
  refine ⟨⟨(i 0).val / 5000, ht⟩, flush1_4 _, ?_⟩
  rw [mem_blk1_4]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    omega

theorem arr1_3 (c : Dev nD) : (dat1 (F := Ideal) V c).arrAt 3 cfg1.N
    = Cert.Spec.lin (V c main_arg1) (V c main_arg9) (fun q => V c main_v2 (ix2 (0 : Fin 1) q)) :=
  (dat1 V c).arrAt_eq_of_cover 3 (lin1 V c) (fun t _ => flushed1_3_eq V c t) (covered1_3)

theorem arr1_4 (c : Dev nD) : (dat1 (F := Ideal) V c).arrAt 4 cfg1.N
    = Cert.Spec.lin (V c main_arg1) (V c main_arg9) (fun q => V c main_v2 (ix2 (0 : Fin 1) q)) :=
  (dat1 V c).arrAt_eq_of_cover 4 (lin1 V c) (fun t _ => flushed1_4_eq V c t) (covered1_4)

end Cert.KernelIdeal.Hand

end
-- ==== Proof.KI.Blk2.lean ====
import proofs.«420848_j14422500180474_3_alg».proof.Proof.KI.Dat2
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

theorem idx2_0 : ∀ t : Fin cfg2.N, win2_0.index t (0 : Fin 2) = t.val ∧ win2_0.index t (1 : Fin 2) = 0 :=
  (by decide +kernel : ∀ t : Fin grid2.N, _)

theorem idx2_1 : ∀ t : Fin cfg2.N, win2_1.index t (0 : Fin 2) = t.val ∧ win2_1.index t (1 : Fin 2) = 0 :=
  (by decide +kernel : ∀ t : Fin grid2.N, _)

theorem idx2_2 : ∀ t : Fin cfg2.N, win2_2.index t (0 : Fin 2) = t.val ∧ win2_2.index t (1 : Fin 2) = 0 :=
  (by decide +kernel : ∀ t : Fin grid2.N, _)

theorem idx2_3 : ∀ t : Fin cfg2.N, win2_3.index t (0 : Fin 2) = t.val ∧ win2_3.index t (1 : Fin 2) = 0 :=
  (by decide +kernel : ∀ t : Fin grid2.N, _)

theorem idx2_4 : ∀ t : Fin cfg2.N, win2_4.index t (0 : Fin 2) = t.val ∧ win2_4.index t (1 : Fin 2) = 0 :=
  (by decide +kernel : ∀ t : Fin grid2.N, _)

theorem idx2_5 : ∀ t : Fin cfg2.N, win2_5.index t (0 : Fin 2) = t.val ∧ win2_5.index t (1 : Fin 2) = 0 :=
  (by decide +kernel : ∀ t : Fin grid2.N, _)

theorem idx2_6 : ∀ t : Fin cfg2.N, win2_6.index t (0 : Fin 2) = 0 ∧ win2_6.index t (1 : Fin 2) = 0 :=
  (by decide +kernel : ∀ t : Fin grid2.N, _)

theorem idx2_7 : ∀ t : Fin cfg2.N, win2_7.index t (0 : Fin 2) = 0 ∧ win2_7.index t (1 : Fin 2) = 0 :=
  (by decide +kernel : ∀ t : Fin grid2.N, _)

theorem idx2_8 : ∀ t : Fin cfg2.N, win2_8.index t (0 : Fin 2) = 0 ∧ win2_8.index t (1 : Fin 2) = 0 :=
  (by decide +kernel : ∀ t : Fin grid2.N, _)

theorem idx2_9 : ∀ t : Fin cfg2.N, win2_9.index t (0 : Fin 2) = 0 ∧ win2_9.index t (1 : Fin 2) = 0 :=
  (by decide +kernel : ∀ t : Fin grid2.N, _)

theorem idx2_10 : ∀ t : Fin cfg2.N, win2_10.index t (0 : Fin 2) = 0 ∧ win2_10.index t (1 : Fin 2) = 0 :=
  (by decide +kernel : ∀ t : Fin grid2.N, _)

theorem idx2_11 : ∀ t : Fin cfg2.N, win2_11.index t (0 : Fin 2) = 0 ∧ win2_11.index t (1 : Fin 2) = 0 :=
  (by decide +kernel : ∀ t : Fin grid2.N, _)

theorem idx2_12 : ∀ t : Fin cfg2.N, win2_12.index t (0 : Fin 2) = 0 ∧ win2_12.index t (1 : Fin 2) = 0 :=
  (by decide +kernel : ∀ t : Fin grid2.N, _)

def row2 (t : Fin cfg2.N) (r : Fin 4000) : Fin 100000 :=
  ⟨4000 * t.val + r.val, by have := t.isLt; have := r.isLt; have h : cfg2.N = 25 := N_2; omega⟩

variable (c : Dev nD)

theorem blk2_0 (A : Buf (Elt F) ((c : Thread nD τ).loc main_v39)) (t : Fin cfg2.N) (r : Fin 4000) (k : Fin 128) :
    ((cfg2.win 0).blk t).view.read (Elt F) A (ix2 r k) = A (ix2 (row2 t r) k) := by
  obtain ⟨e0, e1⟩ := idx2_0 t
  show A (((cfg2.win 0).blk t).view.emb (ix2 r k)) = A (ix2 (row2 t r) k)
  refine congrArg A (funext fun a => Fin.ext ?_)
  match a with
  | ⟨0, _⟩ => show win2_0.index t (0 : Fin 2) * 4000 + 1 * r.val = 4000 * t.val + r.val; omega
  | ⟨1, _⟩ => show win2_0.index t (1 : Fin 2) * 128 + 1 * k.val = k.val; omega

theorem blk2_1 (A : Buf (Elt F) ((c : Thread nD τ).loc main_v60)) (t : Fin cfg2.N) (r : Fin 4000) (k : Fin 128) :
    ((cfg2.win 1).blk t).view.read (Elt F) A (ix2 r k) = A (ix2 (row2 t r) k) := by
  obtain ⟨e0, e1⟩ := idx2_1 t
  show A (((cfg2.win 1).blk t).view.emb (ix2 r k)) = A (ix2 (row2 t r) k)
  refine congrArg A (funext fun a => Fin.ext ?_)
  match a with
  | ⟨0, _⟩ => show win2_1.index t (0 : Fin 2) * 4000 + 1 * r.val = 4000 * t.val + r.val; omega
  | ⟨1, _⟩ => show win2_1.index t (1 : Fin 2) * 128 + 1 * k.val = k.val; omega

theorem blk2_2 (A : Buf (Elt F) ((c : Thread nD τ).loc main_v45)) (t : Fin cfg2.N) (r : Fin 4000) (k : Fin 1) :
    ((cfg2.win 2).blk t).view.read (Elt F) A (ix2 r k) = A (ix2 (row2 t r) k) := by
  obtain ⟨e0, e1⟩ := idx2_2 t
  show A (((cfg2.win 2).blk t).view.emb (ix2 r k)) = A (ix2 (row2 t r) k)
  refine congrArg A (funext fun a => Fin.ext ?_)
  match a with
  | ⟨0, _⟩ => show win2_2.index t (0 : Fin 2) * 4000 + 1 * r.val = 4000 * t.val + r.val; omega
  | ⟨1, _⟩ => show win2_2.index t (1 : Fin 2) * 1 + 1 * k.val = k.val; omega

theorem blk2_3 (A : Buf (Elt F) ((c : Thread nD τ).loc main_v66)) (t : Fin cfg2.N) (r : Fin 4000) (k : Fin 1) :
    ((cfg2.win 3).blk t).view.read (Elt F) A (ix2 r k) = A (ix2 (row2 t r) k) := by
  obtain ⟨e0, e1⟩ := idx2_3 t
  show A (((cfg2.win 3).blk t).view.emb (ix2 r k)) = A (ix2 (row2 t r) k)
  refine congrArg A (funext fun a => Fin.ext ?_)
  match a with
  | ⟨0, _⟩ => show win2_3.index t (0 : Fin 2) * 4000 + 1 * r.val = 4000 * t.val + r.val; omega
  | ⟨1, _⟩ => show win2_3.index t (1 : Fin 2) * 1 + 1 * k.val = k.val; omega

theorem blk2_4 (A : Buf (Elt F) ((c : Thread nD τ).loc main_v1_0)) (t : Fin cfg2.N) (r : Fin 4000) (k : Fin 128) :
    ((cfg2.win 4).blk t).view.read (Elt F) A (ix2 r k) = A (ix2 (row2 t r) k) := by
  obtain ⟨e0, e1⟩ := idx2_4 t
  show A (((cfg2.win 4).blk t).view.emb (ix2 r k)) = A (ix2 (row2 t r) k)
  refine congrArg A (funext fun a => Fin.ext ?_)
  match a with
  | ⟨0, _⟩ => show win2_4.index t (0 : Fin 2) * 4000 + 1 * r.val = 4000 * t.val + r.val; omega
  | ⟨1, _⟩ => show win2_4.index t (1 : Fin 2) * 128 + 1 * k.val = k.val; omega

theorem blk2_5 (A : Buf (Elt F) ((c : Thread nD τ).loc main_v67)) (t : Fin cfg2.N) (r : Fin 4000) (k : Fin 1) :
    ((cfg2.win 5).blk t).view.read (Elt F) A (ix2 r k) = A (ix2 (row2 t r) k) := by
  obtain ⟨e0, e1⟩ := idx2_5 t
  show A (((cfg2.win 5).blk t).view.emb (ix2 r k)) = A (ix2 (row2 t r) k)
  refine congrArg A (funext fun a => Fin.ext ?_)
  match a with
  | ⟨0, _⟩ => show win2_5.index t (0 : Fin 2) * 4000 + 1 * r.val = 4000 * t.val + r.val; omega
  | ⟨1, _⟩ => show win2_5.index t (1 : Fin 2) * 1 + 1 * k.val = k.val; omega

theorem blk2_6 (A : Buf (Elt F) ((c : Thread nD τ).loc main_arg14)) (t : Fin cfg2.N) :
    ((cfg2.win 6).blk t).view.read (Elt F) A = A := by
  obtain ⟨e0, e1⟩ := idx2_6 t
  funext j
  show A (((cfg2.win 6).blk t).view.emb j) = A j
  refine congrArg A (funext fun a => Fin.ext ?_)
  match a with
  | ⟨0, _⟩ => show win2_6.index t (0 : Fin 2) * 128 + 1 * (j 0).val = (j 0).val; omega
  | ⟨1, _⟩ => show win2_6.index t (1 : Fin 2) * 128 + 1 * (j 1).val = (j 1).val; omega

theorem blk2_7 (A : Buf (Elt F) ((c : Thread nD τ).loc main_arg17)) (t : Fin cfg2.N) :
    ((cfg2.win 7).blk t).view.read (Elt F) A = A := by
  obtain ⟨e0, e1⟩ := idx2_7 t
  funext j
  show A (((cfg2.win 7).blk t).view.emb j) = A j
  refine congrArg A (funext fun a => Fin.ext ?_)
  match a with
  | ⟨0, _⟩ => show win2_7.index t (0 : Fin 2) * 128 + 1 * (j 0).val = (j 0).val; omega
  | ⟨1, _⟩ => show win2_7.index t (1 : Fin 2) * 128 + 1 * (j 1).val = (j 1).val; omega

theorem blk2_8 (A : Buf (Elt F) ((c : Thread nD τ).loc main_v68)) (t : Fin cfg2.N) :
    ((cfg2.win 8).blk t).view.read (Elt F) A = A := by
  obtain ⟨e0, e1⟩ := idx2_8 t
  funext j
  show A (((cfg2.win 8).blk t).view.emb j) = A j
  refine congrArg A (funext fun a => Fin.ext ?_)
  match a with
  | ⟨0, _⟩ => show win2_8.index t (0 : Fin 2) * 1 + 1 * (j 0).val = (j 0).val; omega
  | ⟨1, _⟩ => show win2_8.index t (1 : Fin 2) * 128 + 1 * (j 1).val = (j 1).val; omega

theorem blk2_9 (A : Buf (Elt F) ((c : Thread nD τ).loc main_v69)) (t : Fin cfg2.N) :
    ((cfg2.win 9).blk t).view.read (Elt F) A = A := by
  obtain ⟨e0, e1⟩ := idx2_9 t
  funext j
  show A (((cfg2.win 9).blk t).view.emb j) = A j
  refine congrArg A (funext fun a => Fin.ext ?_)
  match a with
  | ⟨0, _⟩ => show win2_9.index t (0 : Fin 2) * 1 + 1 * (j 0).val = (j 0).val; omega
  | ⟨1, _⟩ => show win2_9.index t (1 : Fin 2) * 128 + 1 * (j 1).val = (j 1).val; omega

theorem blk2_10 (A : Buf (Elt F) ((c : Thread nD τ).loc main_arg16)) (t : Fin cfg2.N) :
    ((cfg2.win 10).blk t).view.read (Elt F) A = A := by
  obtain ⟨e0, e1⟩ := idx2_10 t
  funext j
  show A (((cfg2.win 10).blk t).view.emb j) = A j
  refine congrArg A (funext fun a => Fin.ext ?_)
  match a with
  | ⟨0, _⟩ => show win2_10.index t (0 : Fin 2) * 128 + 1 * (j 0).val = (j 0).val; omega
  | ⟨1, _⟩ => show win2_10.index t (1 : Fin 2) * 128 + 1 * (j 1).val = (j 1).val; omega

theorem blk2_11 (A : Buf (Elt F) ((c : Thread nD τ).loc main_arg19)) (t : Fin cfg2.N) :
    ((cfg2.win 11).blk t).view.read (Elt F) A = A := by
  obtain ⟨e0, e1⟩ := idx2_11 t
  funext j
  show A (((cfg2.win 11).blk t).view.emb j) = A j
  refine congrArg A (funext fun a => Fin.ext ?_)
  match a with
  | ⟨0, _⟩ => show win2_11.index t (0 : Fin 2) * 128 + 1 * (j 0).val = (j 0).val; omega
  | ⟨1, _⟩ => show win2_11.index t (1 : Fin 2) * 128 + 1 * (j 1).val = (j 1).val; omega

theorem blk2_12 (A : Buf (Elt F) ((c : Thread nD τ).loc main_v70)) (t : Fin cfg2.N) :
    ((cfg2.win 12).blk t).view.read (Elt F) A = A := by
  obtain ⟨e0, e1⟩ := idx2_12 t
  funext j
  show A (((cfg2.win 12).blk t).view.emb j) = A j
  refine congrArg A (funext fun a => Fin.ext ?_)
  match a with
  | ⟨0, _⟩ => show win2_12.index t (0 : Fin 2) * 256 + 1 * (j 0).val = (j 0).val; omega
  | ⟨1, _⟩ => show win2_12.index t (1 : Fin 2) * 128 + 1 * (j 1).val = (j 1).val; omega

theorem mem_blk2_12 (t : Fin cfg2.N) (i : S256x128.Idx) : i ∈ ((cfg2.win 12).blk t).view.set := by
  obtain ⟨e0, e1⟩ := idx2_12 t
  show i ∈ ((View.whole main_v70).slice (win2_12.rect t)).set
  rw [View.set_slice_whole, Rect.mem_set_unit]
  intro a
  have h0 : (i 0).val < 256 := (i 0).isLt
  have h1 : (i 1).val < 128 := (i 1).isLt
  match a with
  | ⟨0, _⟩ => show win2_12.index t (0 : Fin 2) * 256 ≤ (i 0).val ∧ (i 0).val < win2_12.index t (0 : Fin 2) * 256 + 256; omega
  | ⟨1, _⟩ => show win2_12.index t (1 : Fin 2) * 128 ≤ (i 1).val ∧ (i 1).val < win2_12.index t (1 : Fin 2) * 128 + 128; omega

variable (V : (c : Dev nD) → (b : Ref sig .tc) → Buf (Elt F) ((c : Thread nD τ).loc b))

end Cert.KernelIdeal.Hand

end
-- ==== Proof.KI.SagePay.lean ====
import proofs.«420848_j14422500180474_3_alg».proof.Proof.Gen.KernelIdeal.Skeleton
import proofs.«420848_j14422500180474_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs4000_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

theorem lhs4000_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

theorem rhs4000_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

theorem rhs4000_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem matmul4000_apply (x : FVec Ideal S4000x128 .bf16) (w : FVec Ideal S128x128 .bf16) (r : Fin 4000) (q : Fin 128) :
    matmul dot_S4000x128_S128x128_S4000x128_1_0_0_1_n_n none x w (constant (F := Ideal) S4000x128 .f32 0x00000000#32) (ix2 r q)
      = ∑ k : Fin 128, x (ix2 r k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r q) ((contrEquiv1 dot_S4000x128_S128x128_S4000x128_1_0_0_1_n_n 128 rfl rfl).symm k) = ix2 r k := funext fun a => Fin.ext (by
    match a with
    | ⟨0, _⟩ => exact lhs4000_0 _ _
    | ⟨1, _⟩ => exact (lhs4000_1 _ _).trans hk)
  have er : dot_S4000x128_S128x128_S4000x128_1_0_0_1_n_n.rhsIdx (ix2 r q) ((contrEquiv1 dot_S4000x128_S128x128_S4000x128_1_0_0_1_n_n 128 rfl rfl).symm k) = ix2 k q := funext fun a => Fin.ext (by
    match a with
    | ⟨0, _⟩ => exact (rhs4000_0 _ _).trans hk
    | ⟨1, _⟩ => exact rhs4000_1 _ _)
  rw [el, er]

theorem k2_pay5_apply (v3 : Vec Ideal S4000x128 .f32) (i : S4000x128.Idx) : k2_pay5 (F := Ideal) v3 i = v3 i := by
  unfold k2_pay5
  simp only [truncf_apply, shapeCast_self]

theorem k2_pay6_apply (v3 v11 : Vec Ideal S4000x128 .f32) (v7 : Vec Ideal S4000x1 .f32)
    (v16 v18 : Vec Ideal S128x128 .f32) (v21 : Vec Ideal S1x128 .f32) (r : Fin 4000) (q : Fin 128) :
    k2_pay6 (F := Ideal) v3 v7 v11 v16 v18 v21 (ix2 r q)
      = (Ideal.ofBits .f32 0x00000000#32 : EReal)
        + (((∑ k : Fin 128, Ideal.div (v11 (ix2 r k)) (max (v7 (ix2 r 0)) Cert.Spec.one) * v16 (ix2 k q)) + v21 (ix2 0 q))
          + ∑ k : Fin 128, v3 (ix2 r k) * v18 (ix2 k q)) := by
  unfold k2_pay6
  simp only [addf_apply, matmul4000_apply, truncf_apply, divf_apply, shapeCast_self, broadcastTo_a1_ab_apply,
    broadcastTo_1b_ab_apply, maximumf_apply, broadcast_apply, k2_pay5_apply]
  rfl

theorem sitofp_extui_cmpi_eq (x y : BitVec 32) :
    (FloatOps.sitofp (F := Ideal) .f32 ((IntOp.cmpi .eq x y).setWidth 32) : EReal) = if x = y then (1 : EReal) else 0 := by
  show ((((IntOp.cmpi .eq x y).setWidth 32).toInt : ℝ) : EReal) = _
  by_cases h : x = y
  · subst h
    rw [if_pos rfl]
    simp [IntOp.cmpi]
  · rw [if_neg h]
    have : (x == y) = false := by simpa using h
    simp [IntOp.cmpi, this]

theorem sitofp_extui_bit (b : BitVec 1) :
    (FloatOps.sitofp (F := Ideal) .f32 (b.setWidth 32) : EReal) = if b = 1#1 then (1 : EReal) else 0 := by
  show (((b.setWidth 32).toInt : ℝ) : EReal) = _
  rcases BitVec.eq_zero_or_eq_one b with h | h
  · subst h; simp
  · subst h; simp

theorem k2_pay9_apply (v54 : Vec Ideal S4000x1 .i32) (r : Fin 4000) (g : Fin 256) :
    k2_pay9 (F := Ideal) v54 (ix2 r g) = if v54 (ix2 r 0) = BitVec.ofNat 32 g.val then (1 : EReal) else 0 := by
  unfold k2_pay9
  simp only [sitofp_apply, extui_apply]
  show (FloatOps.sitofp (F := Ideal) .f32 ((IntOp.cmpi .eq
      (broadcastTo S4000x256 (shapeCast S4000x1 v54 shapeCasts_S4000x1_S4000x1) broadcasts_S4000x1_S4000x256 (ix2 r g))
      (broadcastTo S4000x256 (iota .tc S1x256 32 [1] iota_S1x256_d1_w32) broadcasts_S1x256_S4000x256 (ix2 r g))).setWidth 32) : EReal) = _
  rw [sitofp_extui_cmpi_eq, shapeCast_self, broadcastTo_a1_ab_apply, broadcastTo_1b_ab_apply, iota_single_apply]

theorem lhsPool4000_0 (i : S256x128.Idx) (q : dot_S4000x256_S4000x128_S256x128_0_0_1_1_n_n.contr.Idx) :
    (dot_S4000x256_S4000x128_S256x128_0_0_1_1_n_n.lhsIdx i q 0).val = (q ⟨0, by decide⟩).val :=
  dot_S4000x256_S4000x128_S256x128_0_0_1_1_n_n.lhsIdx_val_of_single rfl i q

theorem lhsPool4000_1 (i : S256x128.Idx) (q : dot_S4000x256_S4000x128_S256x128_0_0_1_1_n_n.contr.Idx) :
    (dot_S4000x256_S4000x128_S256x128_0_0_1_1_n_n.lhsIdx i q 1).val = (i 0).val := by
  unfold DotDims.lhsIdx
  rw [dif_neg (show ¬(1 : Fin S4000x256.rank) ∈ dot_S4000x256_S4000x128_S256x128_0_0_1_1_n_n.lhsBatch by decide), dif_pos (show (1 : Fin S4000x256.rank) ∈ dot_S4000x256_S4000x128_S256x128_0_0_1_1_n_n.lhsNonContracting by decide)]
  rfl

theorem rhsPool4000_0 (i : S256x128.Idx) (q : dot_S4000x256_S4000x128_S256x128_0_0_1_1_n_n.contr.Idx) :
    (dot_S4000x256_S4000x128_S256x128_0_0_1_1_n_n.rhsIdx i q 0).val = (q ⟨0, by decide⟩).val :=
  dot_S4000x256_S4000x128_S256x128_0_0_1_1_n_n.rhsIdx_val_of_single rfl i q

theorem rhsPool4000_1 (i : S256x128.Idx) (q : dot_S4000x256_S4000x128_S256x128_0_0_1_1_n_n.contr.Idx) :
    (dot_S4000x256_S4000x128_S256x128_0_0_1_1_n_n.rhsIdx i q 1).val = (i 1).val := by
  unfold DotDims.rhsIdx
  rw [dif_neg (show ¬(1 : Fin S4000x128.rank) ∈ dot_S4000x256_S4000x128_S256x128_0_0_1_1_n_n.rhsBatch by decide), dif_pos (show (1 : Fin S4000x128.rank) ∈ dot_S4000x256_S4000x128_S256x128_0_0_1_1_n_n.rhsNonContracting by decide)]
  rfl

theorem matmulPool4000_apply (w : FVec Ideal S4000x256 .bf16) (x : FVec Ideal S4000x128 .bf16) (g : Fin 256) (q : Fin 128) :
    matmul dot_S4000x256_S4000x128_S256x128_0_0_1_1_n_n none w x (constant (F := Ideal) S256x128 .f32 0x00000000#32) (ix2 g q)
      = ∑ r : Fin 4000, w (ix2 r g) * x (ix2 r q) := by
  simp only [matmul]
  rw [Ideal.matmul_constant_zero_apply, ← Equiv.sum_comp (contrEquiv1 dot_S4000x256_S4000x128_S256x128_0_0_1_1_n_n 4000 rfl rfl).symm]
  refine Finset.sum_congr rfl fun k _ => ?_
  have hk := contrEquiv1_symm_val dot_S4000x256_S4000x128_S256x128_0_0_1_1_n_n 4000 rfl rfl k
  have el : dot_S4000x256_S4000x128_S256x128_0_0_1_1_n_n.lhsIdx (ix2 g q) ((contrEquiv1 dot_S4000x256_S4000x128_S256x128_0_0_1_1_n_n 4000 rfl rfl).symm k) = ix2 k g := funext fun a => Fin.ext (by
    match a with
    | ⟨0, _⟩ => exact (lhsPool4000_0 _ _).trans hk
    | ⟨1, _⟩ => exact lhsPool4000_1 _ _)
  have er : dot_S4000x256_S4000x128_S256x128_0_0_1_1_n_n.rhsIdx (ix2 g q) ((contrEquiv1 dot_S4000x256_S4000x128_S256x128_0_0_1_1_n_n 4000 rfl rfl).symm k) = ix2 k q := funext fun a => Fin.ext (by
    match a with
    | ⟨0, _⟩ => exact (rhsPool4000_0 _ _).trans hk
    | ⟨1, _⟩ => exact rhsPool4000_1 _ _)
  rw [el, er]

theorem multiReduction_add_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (g : Fin b) :
    multiReduction .add [0] ⟨1, ![b]⟩ src 0x00000000#32 h hφ hacc (ix1 g) = ∑ r : Fin a, src (ix2 r g) :=
  (Ideal.multiReduction_add_single src 0x00000000#32 h hφ hacc (ix1 g)).trans
    (Finset.sum_congr rfl fun r _ => congrArg src (funext fun c => Fin.ext (by
      match c with
      | ⟨0, _⟩ => rfl
      | ⟨1, _⟩ => rfl)))

def k2_x (v5 : FVec Ideal S4000x128 .bf16) (v27 v33 v34 : FVec Ideal S4000x128 .f32) (v37 v39 : Vec Ideal S128x128 .f32)
    (v42 : Vec Ideal S1x128 .f32) (r : Fin 4000) (q : Fin 128) : EReal :=
  max ((v27 (ix2 r q)
      + (((∑ k : Fin 128, Ideal.div (v33 (ix2 r k)) (v34 (ix2 r k)) * v37 (ix2 k q)) + v42 (ix2 0 q))
        + ∑ k : Fin 128, v5 (ix2 r k) * v39 (ix2 k q))) * Cert.Spec.half)
    (Ideal.ofBits .f32 0x00000000#32)

theorem k2_pay10_apply (v5 : FVec Ideal S4000x128 .bf16) (v27 v33 v34 : FVec Ideal S4000x128 .f32)
    (v37 v39 : Vec Ideal S128x128 .f32) (v42 : Vec Ideal S1x128 .f32) (v54 : Vec Ideal S4000x1 .i32)
    (v67 : Vec Ideal S256x128 .f32) (g : Fin 256) (q : Fin 128) :
    k2_pay10 (F := Ideal) v5 v27 v33 v34 v37 v39 v42 v54 v67 (ix2 g q)
      = v67 (ix2 g q) + ∑ r : Fin 4000,
          (if v54 (ix2 r 0) = BitVec.ofNat 32 g.val then (1 : EReal) else 0) * k2_x v5 v27 v33 v34 v37 v39 v42 r q := by
  unfold k2_pay10
  simp only [shapeCast_self, addf_apply, matmulPool4000_apply, truncf_apply, k2_pay9_apply, maximumf_apply, mulf_apply,
    broadcast_apply, matmul4000_apply, divf_apply, broadcastTo_1b_ab_apply]
  rfl

theorem k2_pay11_apply (v54 : Vec Ideal S4000x1 .i32) (v72 : Vec Ideal S1x256 .f32) (g : Fin 256) :
    k2_pay11 (F := Ideal) v54 v72 (ix2 0 g)
      = v72 (ix2 0 g) + ∑ r : Fin 4000, (if v54 (ix2 r 0) = BitVec.ofNat 32 g.val then (1 : EReal) else 0) := by
  unfold k2_pay11
  simp only [addf_apply]
  rw [shapeCast_a_1a_apply]
  refine congrArg (v72 (ix2 0 g) + ·) ((multiReduction_add_rows _ _ _ _ g).trans (Finset.sum_congr rfl fun r _ => ?_))
  exact k2_pay9_apply v54 r g

theorem k2_pay1_eq (v73 : FVec Ideal S1x256 .f32) : k2_pay1 (F := Ideal) v73 = v73 := by
  unfold k2_pay1
  simp only [shapeCast_self]

theorem k2_pay3_apply (i : S256x128.Idx) : k2_pay3 (F := Ideal) i = 0 := by
  unfold k2_pay3
  simp only [shapeCast_self, broadcast_apply]
  exact Ideal.ofBits_zero_f32

theorem k2_pay4_apply (i : S1x256.Idx) : k2_pay4 (F := Ideal) i = 0 := by
  unfold k2_pay4
  simp only [shapeCast_self, broadcast_apply]
  exact Ideal.ofBits_zero_f32

theorem k2_pay2_apply (v80 : Vec Ideal S1x256 .f32) (v82 : Vec Ideal S256x128 .f32) (g : Fin 256) (q : Fin 128) :
    k2_pay2 (F := Ideal) v80 v82 (ix2 g q) = Ideal.div (v82 (ix2 g q)) (max (v80 (ix2 0 g)) Cert.Spec.one) := by
  unfold k2_pay2
  simp only [divf_apply, broadcastTo_a1_ab_apply, maximumf_apply, broadcast_apply]
  rw [transpose_ix2_apply (a := 1) (b := 256) v80]
  rfl

theorem k2_pay7_apply (v32 : Vec Ideal S4000x128 .f32) (i : S4000x128.Idx) : k2_pay7 (F := Ideal) v32 i = v32 i := by
  unfold k2_pay7
  simp only [shapeCast_self]

theorem k2_pay8_apply (v28 : Vec Ideal S4000x1 .f32) (r : Fin 4000) (k : Fin 128) :
    k2_pay8 (F := Ideal) v28 (ix2 r k) = max (v28 (ix2 r 0)) Cert.Spec.one := by
  unfold k2_pay8
  simp only [broadcastTo_a1_ab_apply, maximumf_apply, shapeCast_self, broadcast_apply]
  rfl

theorem k2_x_eq_relu2 {N : Nat}
    (S0 : Cert.Spec.Mat N 128) (C0 : Fin N → EReal) (Wl0 : Cert.Spec.Mat 128 128) (bl0 : Fin 128 → EReal) (Wr0 : Cert.Spec.Mat 128 128)
    (S1 : Cert.Spec.Mat N 128) (C1 : Fin N → EReal) (Wl1 : Cert.Spec.Mat 128 128) (bl1 : Fin 128 → EReal) (Wr1 : Cert.Spec.Mat 128 128)
    (Xd : Cert.Spec.Mat N 128)
    (v3 : Vec Ideal S4000x128 .f32) (v7 : Vec Ideal S4000x1 .f32) (v11 : Vec Ideal S4000x128 .f32)
    (v16 v18 : Vec Ideal S128x128 .f32) (v21 : Vec Ideal S1x128 .f32)
    (v28 : Vec Ideal S4000x1 .f32) (v32 : Vec Ideal S4000x128 .f32)
    (v37 v39 : Vec Ideal S128x128 .f32) (v42 : Vec Ideal S1x128 .f32)
    (r : Fin 4000) (n : Fin N) (q : Fin 128)
    (h3 : ∀ k, v3 (ix2 r k) = Xd (ix2 n k)) (h7 : v7 (ix2 r 0) = C0 n) (h11 : ∀ k, v11 (ix2 r k) = S0 (ix2 n k))
    (h16 : ∀ k, v16 (ix2 k q) = Wl0 (ix2 k q)) (h18 : ∀ k, v18 (ix2 k q) = Wr0 (ix2 k q)) (h21 : v21 (ix2 0 q) = bl0 q)
    (h28 : v28 (ix2 r 0) = C1 n) (h32 : ∀ k, v32 (ix2 r k) = S1 (ix2 n k))
    (h37 : ∀ k, v37 (ix2 k q) = Wl1 (ix2 k q)) (h39 : ∀ k, v39 (ix2 k q) = Wr1 (ix2 k q)) (h42 : v42 (ix2 0 q) = bl1 q) :
    k2_x (k2_pay5 (F := Ideal) v3) (k2_pay6 (F := Ideal) v3 v7 v11 v16 v18 v21) (k2_pay7 (F := Ideal) v32)
        (k2_pay8 (F := Ideal) v28) v37 v39 v42 r q
      = Cert.Spec.relu2 (Cert.Spec.sage S0 C0 Wl0 bl0 Xd Wr0) (Cert.Spec.sage S1 C1 Wl1 bl1 Xd Wr1) (ix2 n q) := by
  unfold k2_x
  rw [k2_pay6_apply]
  simp only [k2_pay5_apply, k2_pay7_apply, k2_pay8_apply, h3, h7, h11, h16, h18, h21, h28, h32, h37, h39, h42]
  rw [Ideal.ofBits_zero_f32, zero_add, mul_comm]
  rfl

theorem lhs5000_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs5000_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs5000_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs5000_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul5000_apply (x : FVec Ideal S5000x128 .bf16) (w : FVec Ideal S128x128 .bf16) (r : Fin 5000) (q : Fin 128) :
    matmul dot_S5000x128_S128x128_S5000x128_1_0_0_1_n_n none x w (constant (F := Ideal) S5000x128 .f32 0x00000000#32) (ix2 r q)
      = ∑ k : Fin 128, x (ix2 r k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs5000_0 _ _
    | ⟨1, _⟩ => exact (lhs5000_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs5000_0 _ _).trans hk
    | ⟨1, _⟩ => exact rhs5000_1 _ _)
  rw [el, er]

theorem k3_pay7_apply (v3 v11 : Vec Ideal S5000x128 .f32) (v7 : Vec Ideal S5000x1 .f32)
    (v16 v18 : Vec Ideal S128x128 .f32) (v21 : Vec Ideal S1x128 .f32) (r : Fin 5000) (q : Fin 128) :
    k3_pay7 (F := Ideal) v3 v7 v11 v16 v18 v21 (ix2 r q)
      = max ((Ideal.ofBits .f32 0x00000000#32 : EReal)
          + (((∑ k : Fin 128, Ideal.div (v11 (ix2 r k)) (max (v7 (ix2 r 0)) Cert.Spec.one) * v16 (ix2 k q)) + v21 (ix2 0 q))
            + ∑ k : Fin 128, v3 (ix2 r k) * v18 (ix2 k q)))
        (Ideal.ofBits .f32 0x00000000#32) := by
  unfold k3_pay7
  simp only [addf_apply, matmul5000_apply, truncf_apply, divf_apply, shapeCast_self, broadcastTo_a1_ab_apply,
    broadcastTo_1b_ab_apply, maximumf_apply, broadcast_apply]
  rfl

theorem k3_pay8_cmpi (v31 : Vec Ideal S5000x1 .i32) (r : Fin 5000) (g : Fin 256) :
    k3_pay8 (F := Ideal) v31 (ix2 r g) = IntOp.cmpi .eq (v31 (ix2 r 0)) (BitVec.ofNat 32 g.val) := by
  unfold k3_pay8
  show IntOp.cmpi .eq
      (broadcastTo S5000x256 (shapeCast S5000x1 v31 shapeCasts_S5000x1_S5000x1) broadcasts_S5000x1_S5000x256 (ix2 r g))
      (broadcastTo S5000x256 (iota .tc S1x256 32 [1] iota_S1x256_d1_w32) broadcasts_S1x256_S5000x256 (ix2 r g)) = _
  rw [shapeCast_self, broadcastTo_a1_ab_apply, broadcastTo_1b_ab_apply, iota_single_apply]

theorem k3_pay1_pay8_apply (v31 : Vec Ideal S5000x1 .i32) (r : Fin 5000) (g : Fin 256) :
    k3_pay1 (F := Ideal) (k3_pay8 (F := Ideal) v31) (ix2 r g)
      = if v31 (ix2 r 0) = BitVec.ofNat 32 g.val then (1 : EReal) else 0 := by
  unfold k3_pay1
  simp only [sitofp_apply, extui_apply]
  rw [k3_pay8_cmpi]
  exact sitofp_extui_cmpi_eq _ _

theorem lhsPool5000_0 (i : S256x128.Idx) (q : dot_S5000x256_S5000x128_S256x128_0_0_1_1_n_n.contr.Idx) :
    (dot_S5000x256_S5000x128_S256x128_0_0_1_1_n_n.lhsIdx i q 0).val = (q ⟨0, by decide⟩).val :=
  dot_S5000x256_S5000x128_S256x128_0_0_1_1_n_n.lhsIdx_val_of_single rfl i q

theorem lhsPool5000_1 (i : S256x128.Idx) (q : dot_S5000x256_S5000x128_S256x128_0_0_1_1_n_n.contr.Idx) :
    (dot_S5000x256_S5000x128_S256x128_0_0_1_1_n_n.lhsIdx i q 1).val = (i 0).val := by
  unfold DotDims.lhsIdx
  rw [dif_neg (show ¬(1 : Fin S5000x256.rank) ∈ dot_S5000x256_S5000x128_S256x128_0_0_1_1_n_n.lhsBatch by decide), dif_pos (show (1 : Fin S5000x256.rank) ∈ dot_S5000x256_S5000x128_S256x128_0_0_1_1_n_n.lhsNonContracting by decide)]
  rfl

theorem rhsPool5000_0 (i : S256x128.Idx) (q : dot_S5000x256_S5000x128_S256x128_0_0_1_1_n_n.contr.Idx) :
    (dot_S5000x256_S5000x128_S256x128_0_0_1_1_n_n.rhsIdx i q 0).val = (q ⟨0, by decide⟩).val :=
  dot_S5000x256_S5000x128_S256x128_0_0_1_1_n_n.rhsIdx_val_of_single rfl i q

theorem rhsPool5000_1 (i : S256x128.Idx) (q : dot_S5000x256_S5000x128_S256x128_0_0_1_1_n_n.contr.Idx) :
    (dot_S5000x256_S5000x128_S256x128_0_0_1_1_n_n.rhsIdx i q 1).val = (i 1).val := by
  unfold DotDims.rhsIdx
  rw [dif_neg (show ¬(1 : Fin S5000x128.rank) ∈ dot_S5000x256_S5000x128_S256x128_0_0_1_1_n_n.rhsBatch by decide), dif_pos (show (1 : Fin S5000x128.rank) ∈ dot_S5000x256_S5000x128_S256x128_0_0_1_1_n_n.rhsNonContracting by decide)]
  rfl

theorem matmulPool5000_apply (w : FVec Ideal S5000x256 .bf16) (x : FVec Ideal S5000x128 .bf16) (g : Fin 256) (q : Fin 128) :
    matmul dot_S5000x256_S5000x128_S256x128_0_0_1_1_n_n none w x (constant (F := Ideal) S256x128 .f32 0x00000000#32) (ix2 g q)
      = ∑ r : Fin 5000, w (ix2 r g) * x (ix2 r q) := by
  simp only [matmul]
  rw [Ideal.matmul_constant_zero_apply, ← Equiv.sum_comp (contrEquiv1 dot_S5000x256_S5000x128_S256x128_0_0_1_1_n_n 5000 rfl rfl).symm]
  refine Finset.sum_congr rfl fun k _ => ?_
  have hk := contrEquiv1_symm_val dot_S5000x256_S5000x128_S256x128_0_0_1_1_n_n 5000 rfl rfl k
  have el : dot_S5000x256_S5000x128_S256x128_0_0_1_1_n_n.lhsIdx (ix2 g q) ((contrEquiv1 dot_S5000x256_S5000x128_S256x128_0_0_1_1_n_n 5000 rfl rfl).symm k) = ix2 k g := funext fun a => Fin.ext (by
    match a with
    | ⟨0, _⟩ => exact (lhsPool5000_0 _ _).trans hk
    | ⟨1, _⟩ => exact lhsPool5000_1 _ _)
  have er : dot_S5000x256_S5000x128_S256x128_0_0_1_1_n_n.rhsIdx (ix2 g q) ((contrEquiv1 dot_S5000x256_S5000x128_S256x128_0_0_1_1_n_n 5000 rfl rfl).symm k) = ix2 k q := funext fun a => Fin.ext (by
    match a with
    | ⟨0, _⟩ => exact (rhsPool5000_0 _ _).trans hk
    | ⟨1, _⟩ => exact rhsPool5000_1 _ _)
  rw [el, er]

theorem k3_pay2_apply (v30 : FVec Ideal S5000x128 .bf16) (v36 : IVec S5000x256 1) (v44 : Vec Ideal S256x128 .f32)
    (g : Fin 256) (q : Fin 128) :
    k3_pay2 (F := Ideal) v30 v36 v44 (ix2 g q)
      = v44 (ix2 g q) + ∑ r : Fin 5000, k3_pay1 (F := Ideal) v36 (ix2 r g) * v30 (ix2 r q) := by
  unfold k3_pay2
  simp only [shapeCast_self, addf_apply, matmulPool5000_apply, truncf_apply]

theorem k3_pay2_pay8_apply (v30 : FVec Ideal S5000x128 .bf16) (v31 : Vec Ideal S5000x1 .i32) (v44 : Vec Ideal S256x128 .f32)
    (g : Fin 256) (q : Fin 128) :
    k3_pay2 (F := Ideal) v30 (k3_pay8 (F := Ideal) v31) v44 (ix2 g q)
      = v44 (ix2 g q) + ∑ r : Fin 5000,
          (if v31 (ix2 r 0) = BitVec.ofNat 32 g.val then (1 : EReal) else 0) * v30 (ix2 r q) := by
  rw [k3_pay2_apply]
  simp only [k3_pay1_pay8_apply]

theorem k3_pay3_apply (v36 : IVec S5000x256 1) (v49 : Vec Ideal S1x256 .f32) (g : Fin 256) :
    k3_pay3 (F := Ideal) v36 v49 (ix2 0 g)
      = v49 (ix2 0 g) + ∑ r : Fin 5000, k3_pay1 (F := Ideal) v36 (ix2 r g) := by
  unfold k3_pay3
  simp only [shapeCast_self, addf_apply]
  rw [shapeCast_a_1a_apply]
  exact congrArg (v49 (ix2 0 g) + ·) (multiReduction_add_rows _ _ _ _ g)

theorem k3_pay3_pay8_apply (v31 : Vec Ideal S5000x1 .i32) (v49 : Vec Ideal S1x256 .f32) (g : Fin 256) :
    k3_pay3 (F := Ideal) (k3_pay8 (F := Ideal) v31) v49 (ix2 0 g)
      = v49 (ix2 0 g) + ∑ r : Fin 5000, (if v31 (ix2 r 0) = BitVec.ofNat 32 g.val then (1 : EReal) else 0) := by
  rw [k3_pay3_apply]
  simp only [k3_pay1_pay8_apply]

theorem k3_pay5_apply (i : S256x128.Idx) : k3_pay5 (F := Ideal) i = 0 := by
  unfold k3_pay5
  simp only [shapeCast_self, broadcast_apply]
  exact Ideal.ofBits_zero_f32

theorem k3_pay6_apply (i : S1x256.Idx) : k3_pay6 (F := Ideal) i = 0 := by
  unfold k3_pay6
  simp only [shapeCast_self, broadcast_apply]
  exact Ideal.ofBits_zero_f32

theorem k3_pay4_apply (v57 : Vec Ideal S1x256 .f32) (v59 : Vec Ideal S256x128 .f32) (g : Fin 256) (q : Fin 128) :
    k3_pay4 (F := Ideal) v57 v59 (ix2 g q) = Ideal.div (v59 (ix2 g q)) (max (v57 (ix2 0 g)) Cert.Spec.one) := by
  unfold k3_pay4
  simp only [divf_apply, broadcastTo_a1_ab_apply, maximumf_apply, broadcast_apply]
  rw [transpose_ix2_apply (a := 1) (b := 256) v57]
  rfl

end Cert.KernelIdeal.Hand

end
-- ==== Proof.LibPool.lean ====
import Mathlib.Algebra.BigOperators.Fin
import Mathlib.Algebra.BigOperators.Intervals
import Mathlib.Data.EReal.Operations
import Idealize.ShloMosaic.PureOps.Ideal
import Idealize.ShloMosaic.Lib.ValueIdx

noncomputable section

namespace Cert.LibPool

open Finset

theorem eq_ofNat_iff_toInt (b : BitVec 32) (g : Nat) (hg : g < 2 ^ 31) :
    b = BitVec.ofNat 32 g ↔ b.toInt = (g : ℤ) := by
  have hmod : g % 2 ^ 32 = g := Nat.mod_eq_of_lt (by omega)
  constructor
  · rintro rfl
    rw [BitVec.toInt_eq_toNat_cond, BitVec.toNat_ofNat, hmod]
    split_ifs <;> omega
  · intro h
    apply BitVec.eq_of_toNat_eq
    rw [BitVec.toNat_ofNat, hmod]
    rw [BitVec.toInt_eq_toNat_cond] at h
    have := b.isLt
    split_ifs at h <;> omega

section OneHot

variable {ι : Type*} [Fintype ι]

theorem sum_ite_mul (p : ι → Prop) [DecidablePred p] (x : ι → EReal) :
    ∑ n, (if p n then (1 : EReal) else 0) * x n = ∑ n ∈ univ.filter p, x n := by
  rw [Finset.sum_filter]
  refine Finset.sum_congr rfl (fun n _ => ?_)
  split_ifs
  · exact one_mul _
  · exact zero_mul _

theorem sum_ite_one (p : ι → Prop) [DecidablePred p] :
    ∑ n, (if p n then (1 : EReal) else 0) = ∑ _n ∈ univ.filter p, (1 : EReal) := by
  rw [Finset.sum_filter]

theorem sum_onehot_mul {C : Nat} (hC : C ≤ 2 ^ 31) (b : ι → BitVec 32) (x : ι → EReal) (g : Fin C) :
    ∑ n, (if b n = BitVec.ofNat 32 g.val then (1 : EReal) else 0) * x n
      = ∑ n ∈ univ.filter (fun n => (b n).toInt = (g.val : ℤ)), x n := by
  rw [sum_ite_mul]
  refine Finset.sum_congr (Finset.filter_congr (fun n _ => ?_)) (fun _ _ => rfl)
  exact eq_ofNat_iff_toInt (b n) g.val (lt_of_lt_of_le g.isLt hC)

theorem sum_onehot {C : Nat} (hC : C ≤ 2 ^ 31) (b : ι → BitVec 32) (g : Fin C) :
    ∑ n, (if b n = BitVec.ofNat 32 g.val then (1 : EReal) else 0)
      = ∑ _n ∈ univ.filter (fun n => (b n).toInt = (g.val : ℤ)), (1 : EReal) := by
  rw [sum_ite_one]
  refine Finset.sum_congr (Finset.filter_congr (fun n _ => ?_)) (fun _ _ => rfl)
  exact eq_ofNat_iff_toInt (b n) g.val (lt_of_lt_of_le g.isLt hC)

end OneHot

section Running

variable {M : Type*} [AddCommMonoid M]

theorem sum_tile {T P : Nat} (f : Fin (T * P) → M) (p : Nat) (idx : Fin T → Fin (T * P))
    (hidx : ∀ r, (idx r).val = T * p + r.val) :
    ∑ r : Fin T, f (idx r)
      = ∑ n ∈ univ.filter (fun n : Fin (T * P) => T * p ≤ n.val ∧ n.val < T * (p + 1)), f n := by
  refine Finset.sum_bij (fun r _ => idx r) (fun r _ => ?_) (fun r₁ _ r₂ _ e => ?_) (fun n hn => ?_) (fun _ _ => rfl)
  · rw [Finset.mem_filter]
    have := hidx r
    have := r.isLt
    refine ⟨Finset.mem_univ _, by omega, ?_⟩
    rw [Nat.mul_succ]; omega
  · have h1 := hidx r₁
    have h2 := hidx r₂
    rw [e] at h1
    exact Fin.ext (by omega)
  · rw [Finset.mem_filter, Nat.mul_succ] at hn
    obtain ⟨_, hn1, hn2⟩ := hn
    refine ⟨⟨n.val - T * p, by omega⟩, Finset.mem_univ _, Fin.ext ?_⟩
    rw [hidx]
    show T * p + (n.val - T * p) = n.val
    omega

theorem running_sum_tiles {T P : Nat} (f : Fin (T * P) → M) (idx : Nat → Fin T → Fin (T * P))
    (hidx : ∀ p, p < P → ∀ r, (idx p r).val = T * p + r.val)
    (a0 : M) (acc : Nat → M) (h0 : acc 0 = a0)
    (hs : ∀ p, p < P → acc (p + 1) = acc p + ∑ r : Fin T, f (idx p r)) :
    ∀ p, p ≤ P → acc p = a0 + ∑ n ∈ univ.filter (fun n : Fin (T * P) => n.val < T * p), f n := by
  intro p
  induction p with
  | zero =>
    intro _
    rw [h0, Nat.mul_zero, Finset.filter_false_of_mem (fun n _ => Nat.not_lt_zero _), Finset.sum_empty, add_zero]
  | succ p ih =>
    intro hp
    have hp' : p < P := Nat.lt_of_succ_le hp
    rw [hs p hp', ih (Nat.le_of_lt hp'), sum_tile f p (idx p) (hidx p hp'), add_assoc]
    congr 1
    rw [← Finset.sum_filter_add_sum_filter_not (univ.filter (fun n : Fin (T * P) => n.val < T * (p + 1)))
      (fun n => n.val < T * p), Finset.filter_filter, Finset.filter_filter]
    congr 1
    · refine Finset.sum_congr (Finset.filter_congr (fun n _ => ?_)) (fun _ _ => rfl)
      rw [Nat.mul_succ]; omega
    · refine Finset.sum_congr (Finset.filter_congr (fun n _ => ?_)) (fun _ _ => rfl)
      omega

theorem running_sum_tiles_last {T P : Nat} (f : Fin (T * P) → M) (idx : Nat → Fin T → Fin (T * P))
    (hidx : ∀ p, p < P → ∀ r, (idx p r).val = T * p + r.val)
    (a0 : M) (acc : Nat → M) (h0 : acc 0 = a0)
    (hs : ∀ p, p < P → acc (p + 1) = acc p + ∑ r : Fin T, f (idx p r)) :
    acc P = a0 + ∑ n, f n := by
  rw [running_sum_tiles f idx hidx a0 acc h0 hs P (Nat.le_refl P),
    Finset.filter_true_of_mem (fun n _ => n.isLt)]

end Running

section Pool

variable {T P C : Nat}

theorem running_onehot_sum (hC : C ≤ 2 ^ 31) (b : Fin (T * P) → BitVec 32) (x : Fin (T * P) → EReal) (g : Fin C)
    (idx : Nat → Fin T → Fin (T * P)) (hidx : ∀ p, p < P → ∀ r, (idx p r).val = T * p + r.val)
    (a0 : EReal) (acc : Nat → EReal) (h0 : acc 0 = a0)
    (hs : ∀ p, p < P → acc (p + 1) = acc p
      + ∑ r : Fin T, (if b (idx p r) = BitVec.ofNat 32 g.val then (1 : EReal) else 0) * x (idx p r)) :
    acc P = a0 + ∑ n ∈ univ.filter (fun n => (b n).toInt = (g.val : ℤ)), x n := by
  rw [running_sum_tiles_last (fun n => (if b n = BitVec.ofNat 32 g.val then (1 : EReal) else 0) * x n) idx hidx a0 acc h0 hs,
    sum_onehot_mul hC]

theorem running_onehot_count (hC : C ≤ 2 ^ 31) (b : Fin (T * P) → BitVec 32) (g : Fin C)
    (idx : Nat → Fin T → Fin (T * P)) (hidx : ∀ p, p < P → ∀ r, (idx p r).val = T * p + r.val)
    (a0 : EReal) (acc : Nat → EReal) (h0 : acc 0 = a0)
    (hs : ∀ p, p < P → acc (p + 1) = acc p
      + ∑ r : Fin T, (if b (idx p r) = BitVec.ofNat 32 g.val then (1 : EReal) else 0)) :
    acc P = a0 + ∑ _n ∈ univ.filter (fun n => (b n).toInt = (g.val : ℤ)), (1 : EReal) := by
  rw [running_sum_tiles_last (fun n => (if b n = BitVec.ofNat 32 g.val then (1 : EReal) else 0)) idx hidx a0 acc h0 hs,
    sum_onehot hC]

end Pool

end Cert.LibPool

end
-- ==== Proof.KI.Val2.lean ====
import proofs.«420848_j14422500180474_3_alg».proof.Proof.Gen.KernelIdeal.Launch
import proofs.«420848_j14422500180474_3_alg».proof.Proof.Gen.KernelIdeal.Skeleton
import proofs.«420848_j14422500180474_3_alg».proof.Proof.Gen.KernelIdeal.Points
import proofs.«420848_j14422500180474_3_alg».proof.Proof.KI.Dat2
import proofs.«420848_j14422500180474_3_alg».proof.Proof.KI.Blk2
import proofs.«420848_j14422500180474_3_alg».proof.Proof.KI.SagePay
import proofs.«420848_j14422500180474_3_alg».proof.Proof.Spec
import proofs.«420848_j14422500180474_3_alg».proof.Proof.LibPool

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (V : (c : Dev nD) → (b : Ref sig .tc) → Buf (Elt Ideal) ((c : Thread nD τ).loc b)) (c : Dev nD)

private theorem one_eq_one : Cert.Spec.one = (1 : EReal) := by
  simp [Ideal.ofBits, Ideal.ieee]
  rw [← EReal.coe_mul, ← EReal.coe_one]
  congr 1
  norm_num

abbrev X2 : Cert.Spec.Mat 100000 128 :=
  Cert.Spec.relu2
    (Cert.Spec.sage (V c main_v39) (fun p => V c main_v45 (ix2 p 0)) (V c main_arg14) (fun q => V c main_v68 (ix2 0 q)) (V c main_v1_0) (V c main_arg16))
    (Cert.Spec.sage (V c main_v60) (fun p => V c main_v66 (ix2 p 0)) (V c main_arg17) (fun q => V c main_v69 (ix2 0 q)) (V c main_v1_0) (V c main_arg19))

abbrev B2 : Fin 100000 → BitVec 32 := fun n => V c main_v67 (ix2 n 0)

theorem sStepAt2_apply (t : Fin cfg2.N) (s : Vec Ideal S256x128 .f32) (g : Fin 256) (q : Fin 128) :
    sStep2 (iblk2 V c 0 t) (iblk2 V c 1 t) (iblk2 V c 2 t) (iblk2 V c 3 t) (iblk2 V c 4 t) (iblk2 V c 5 t) (iblk2 V c 6 t)
        (iblk2 V c 7 t) (iblk2 V c 8 t) (iblk2 V c 9 t) (iblk2 V c 10 t) (iblk2 V c 11 t) s (ix2 g q)
      = s (ix2 g q) + ∑ r : Fin 4000, (if B2 V c (row2 t r) = BitVec.ofNat 32 g.val then (1 : EReal) else 0) * X2 V c (ix2 (row2 t r) q) := by
  refine (congrFun (sStep2_eq (iblk2 V c 0 t) (iblk2 V c 1 t) (iblk2 V c 2 t) (iblk2 V c 3 t) (iblk2 V c 4 t) (iblk2 V c 5 t) (iblk2 V c 6 t)
        (iblk2 V c 7 t) (iblk2 V c 8 t) (iblk2 V c 9 t) (iblk2 V c 10 t) (iblk2 V c 11 t) s) (ix2 g q)).trans ?_
  refine (k2_pay10_apply _ _ _ _ _ _ _ _ s g q).trans ?_
  refine congrArg (s (ix2 g q) + ·) (Finset.sum_congr rfl fun r _ => ?_)
  have hb : iblk2 V c 5 t (ix2 r 0) = B2 V c (row2 t r) := blk2_5 c (V c main_v67) t r 0
  have hx : k2_x (k2_pay5 (F := Ideal) (iblk2 V c 4 t))
        (k2_pay6 (F := Ideal) (iblk2 V c 4 t) (iblk2 V c 2 t) (iblk2 V c 0 t) (iblk2 V c 6 t) (iblk2 V c 10 t) (iblk2 V c 8 t))
        (k2_pay7 (F := Ideal) (iblk2 V c 1 t)) (k2_pay8 (F := Ideal) (iblk2 V c 3 t)) (iblk2 V c 7 t) (iblk2 V c 11 t) (iblk2 V c 9 t) r q
      = X2 V c (ix2 (row2 t r) q) :=
    k2_x_eq_relu2 (V c main_v39) (fun p => V c main_v45 (ix2 p 0)) (V c main_arg14) (fun q => V c main_v68 (ix2 0 q)) (V c main_arg16)
      (V c main_v60) (fun p => V c main_v66 (ix2 p 0)) (V c main_arg17) (fun q => V c main_v69 (ix2 0 q)) (V c main_arg19)
      (V c main_v1_0)
      (iblk2 V c 4 t) (iblk2 V c 2 t) (iblk2 V c 0 t) (iblk2 V c 6 t) (iblk2 V c 10 t) (iblk2 V c 8 t)
      (iblk2 V c 3 t) (iblk2 V c 1 t) (iblk2 V c 7 t) (iblk2 V c 11 t) (iblk2 V c 9 t) r (row2 t r) q
      (fun k => blk2_4 c (V c main_v1_0) t r k) (blk2_2 c (V c main_v45) t r 0) (fun k => blk2_0 c (V c main_v39) t r k)
      (fun k => congrFun (blk2_6 c (V c main_arg14) t) (ix2 k q)) (fun k => congrFun (blk2_10 c (V c main_arg16) t) (ix2 k q))
      (congrFun (blk2_8 c (V c main_v68) t) (ix2 0 q))
      (blk2_3 c (V c main_v66) t r 0) (fun k => blk2_1 c (V c main_v60) t r k)
      (fun k => congrFun (blk2_7 c (V c main_arg17) t) (ix2 k q)) (fun k => congrFun (blk2_11 c (V c main_arg19) t) (ix2 k q))
      (congrFun (blk2_9 c (V c main_v69) t) (ix2 0 q))
  exact congrArg₂ (fun (b : BitVec 32) (m : EReal) => (if b = BitVec.ofNat 32 g.val then (1 : EReal) else 0) * m) hb hx

theorem cStepAt2_apply (t : Fin cfg2.N) (n : Vec Ideal S1x256 .f32) (g : Fin 256) :
    cStep2 (iblk2 V c 5 t) n (ix2 0 g)
      = n (ix2 0 g) + ∑ r : Fin 4000, (if B2 V c (row2 t r) = BitVec.ofNat 32 g.val then (1 : EReal) else 0) := by
  refine (congrFun (cStep2_eq (iblk2 V c 5 t) n) (ix2 0 g)).trans ?_
  rw [k2_pay1_eq]
  refine (k2_pay11_apply _ n g).trans ?_
  refine congrArg (n (ix2 0 g) + ·) (Finset.sum_congr rfl fun r _ => ?_)
  have hb : iblk2 V c 5 t (ix2 r 0) = B2 V c (row2 t r) := blk2_5 c (V c main_v67) t r 0
  exact congrArg (fun (b : BitVec 32) => (if b = BitVec.ofNat 32 g.val then (1 : EReal) else 0)) hb

def tile2 (p : Nat) (r : Fin 4000) : Fin (4000 * 25) :=
  if h : p < cfg2.N then row2 ⟨p, h⟩ r else ⟨0, by norm_num⟩

theorem tile2_val (p : Nat) (hp : p < 25) (r : Fin 4000) : (tile2 p r).val = 4000 * p + r.val := by
  unfold tile2
  rw [dif_pos (lt_of_lt_of_eq hp N_2.symm)]
  rfl

theorem sAcc2_last (g : Fin 256) (q : Fin 128) :
    sAcc2 V c 25 (ix2 g q)
      = 0 + ∑ n ∈ Finset.univ.filter (fun n : Fin 100000 => (B2 V c n).toInt = (g.val : ℤ)), X2 V c (ix2 n q) := by
  refine Cert.LibPool.running_onehot_sum (T := 4000) (P := 25) (C := 256) (by norm_num) (B2 V c) (fun n => X2 V c (ix2 n q)) g
    tile2 tile2_val 0 (fun p => sAcc2 V c p (ix2 g q)) ?_ ?_
  · show sReset2 (F := Ideal) (ix2 g q) = 0
    rw [sReset2_eq]
    exact k2_pay3_apply _
  · intro p hp
    have hp' : p < cfg2.N := lt_of_lt_of_eq hp N_2.symm
    show sAcc2 V c (p + 1) (ix2 g q) = _
    rw [sAcc2_succ V c p hp', sStepAt2_apply]
    refine congrArg (sAcc2 V c p (ix2 g q) + ·) (Finset.sum_congr rfl fun r _ => ?_)
    have e : tile2 p r = row2 ⟨p, hp'⟩ r := dif_pos hp'
    rw [e]

theorem cAcc2_last (g : Fin 256) :
    cAcc2 V c 25 (ix2 0 g)
      = 0 + ∑ _n ∈ Finset.univ.filter (fun n : Fin 100000 => (B2 V c n).toInt = (g.val : ℤ)), (1 : EReal) := by
  refine Cert.LibPool.running_onehot_count (T := 4000) (P := 25) (C := 256) (by norm_num) (B2 V c) g
    tile2 tile2_val 0 (fun p => cAcc2 V c p (ix2 0 g)) ?_ ?_
  · show cReset2 (F := Ideal) (ix2 0 g) = 0
    rw [cReset2_eq]
    exact k2_pay4_apply _
  · intro p hp
    have hp' : p < cfg2.N := lt_of_lt_of_eq hp N_2.symm
    show cAcc2 V c (p + 1) (ix2 0 g) = _
    rw [cAcc2_succ V c p hp', cStepAt2_apply]
    refine congrArg (cAcc2 V c p (ix2 0 g) + ·) (Finset.sum_congr rfl fun r _ => ?_)
    have e : tile2 p r = row2 ⟨p, hp'⟩ r := dif_pos hp'
    rw [e]

theorem arr2_12 :
    (dat2 (F := Ideal) V c).arrAt 12 cfg2.N
      = Cert.Spec.pool (Cert.Spec.relu2
          (Cert.Spec.sage (V c main_v39) (fun p => V c main_v45 (ix2 p 0)) (V c main_arg14) (fun q => V c main_v68 (ix2 0 q)) (V c main_v1_0) (V c main_arg16))
          (Cert.Spec.sage (V c main_v60) (fun p => V c main_v66 (ix2 p 0)) (V c main_arg17) (fun q => V c main_v69 (ix2 0 q)) (V c main_v1_0) (V c main_arg19)))
          (fun n => V c main_v67 (ix2 n 0)) := by
  have hN : cfg2.N = 25 := N_2
  refine (dat2 (F := Ideal) V c).arrAt_eq_of_cover 12 _ (fun t hf => ?_) (fun i => ?_)
  · have ht : t.val = 24 := by
      have h1 := (flush2_12 t).mp hf
      have h2 := t.isLt
      omega
    show (cfg2.win 12).cut (grid2.coords t) ((dat2 (F := Ideal) V c).after 12 t) = _
    rw [after2_12, blk2_12 c, ht, out2_12_eq]
    funext j
    obtain ⟨g, q, rfl⟩ : ∃ (g : Fin 256) (q : Fin 128), j = ix2 g q := ⟨j 0, j 1, eq_ix2 j⟩
    show k2_pay2 (F := Ideal) (cAcc2 V c 25) (sAcc2 V c 25) (ix2 g q) = _
    rw [k2_pay2_apply, sAcc2_last, cAcc2_last, zero_add, zero_add, Cert.Spec.pool_apply]
    unfold Cert.Spec.poolC
    rw [one_eq_one]
  · exact ⟨⟨24, by rw [hN]; norm_num⟩, (flush2_12 _).mpr rfl, mem_blk2_12 _ i⟩

end Cert.KernelIdeal.Hand

end
-- ==== Proof.KI.Val3.lean ====
import proofs.«420848_j14422500180474_3_alg».proof.Proof.Gen.KernelIdeal.Launch
import proofs.«420848_j14422500180474_3_alg».proof.Proof.Gen.KernelIdeal.Skeleton
import proofs.«420848_j14422500180474_3_alg».proof.Proof.Gen.KernelIdeal.Points
import proofs.«420848_j14422500180474_3_alg».proof.Proof.KI.Dat3
import proofs.«420848_j14422500180474_3_alg».proof.Proof.KI.SagePay
import proofs.«420848_j14422500180474_3_alg».proof.Proof.Spec
import proofs.«420848_j14422500180474_3_alg».proof.Proof.LibPool

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem ofBits_one_f32 : Ideal.ofBits .f32 0x3F800000#32 = (1 : EReal) := by
  simp [Ideal.ofBits, Ideal.ieee]
  rw [← EReal.coe_mul, ← EReal.coe_one]
  congr 1
  norm_num

theorem sageC_congr {N N' : Nat} (s : Cert.Spec.Mat N 128) (s' : Cert.Spec.Mat N' 128) (cnt : Fin N → EReal) (cnt' : Fin N' → EReal)
    (wl wl' : Cert.Spec.Mat 128 128) (bl bl' : Fin 128 → EReal) (xd : Cert.Spec.Mat N 128) (xd' : Cert.Spec.Mat N' 128)
    (wr wr' : Cert.Spec.Mat 128 128) (p : Fin N) (p' : Fin N') (q : Fin 128)
    (hs : ∀ k, s (ix2 p k) = s' (ix2 p' k)) (hc : cnt p = cnt' p') (hwl : wl = wl') (hbl : bl = bl')
    (hx : ∀ k, xd (ix2 p k) = xd' (ix2 p' k)) (hwr : wr = wr') :
    Cert.Spec.sageC s cnt wl bl xd wr p q = Cert.Spec.sageC s' cnt' wl' bl' xd' wr' p' q := by
  subst hwl hbl hwr
  unfold Cert.Spec.sageC
  simp only [hs, hc, hx]

theorem rows3_apply (x0 : Vec Ideal S5000x128 .f32) (x1 : Vec Ideal S5000x1 .f32) (x2 : Vec Ideal S5000x128 .f32)
    (x4 : Vec Ideal S128x128 .f32) (x5 : Vec Ideal S1x128 .f32) (x6 : Vec Ideal S128x128 .f32) (r : Fin 5000) (q : Fin 128) :
    rows3 (F := Ideal) x0 x1 x2 x4 x5 x6 (ix2 r q)
      = max (Cert.Spec.sageC (N := 5000) x0 (fun p => x1 (ix2 p 0)) x4 (fun q => x5 (ix2 0 q)) x2 x6 r q) 0 := by
  unfold rows3
  simp only [View.ld_unit_zero (S := S5000x128) hz3, View.ld_unit_zero (S := S5000x1) hz3, View.ld_unit_zero (S := S128x128) hz3, View.ld_unit_zero (S := S1x128) hz3, View.ld_unit_zero (S := S256x128) hz3, View.ld_unit_zero (S := S1x256) hz3]
  rw [k3_pay7_apply, Ideal.ofBits_zero_f32, zero_add]
  rfl

theorem sStep3_apply (x0 : Vec Ideal S5000x128 .f32) (x1 : Vec Ideal S5000x1 .f32) (x2 : Vec Ideal S5000x128 .f32)
    (x3 : Vec Ideal S5000x1 .i32) (x4 : Vec Ideal S128x128 .f32) (x5 : Vec Ideal S1x128 .f32) (x6 : Vec Ideal S128x128 .f32)
    (s : Vec Ideal S256x128 .f32) (g : Fin 256) (q : Fin 128) :
    sStep3 (F := Ideal) x0 x1 x2 x3 x4 x5 x6 s (ix2 g q)
      = s (ix2 g q) + ∑ r : Fin 5000, (if x3 (ix2 r 0) = BitVec.ofNat 32 g.val then (1 : EReal) else 0)
          * max (Cert.Spec.sageC (N := 5000) x0 (fun p => x1 (ix2 p 0)) x4 (fun q => x5 (ix2 0 q)) x2 x6 r q) 0 := by
  unfold sStep3 hot3
  rw [View.canon_unit_zero hz3]
  simp only [View.ld_unit_zero (S := S5000x128) hz3, View.ld_unit_zero (S := S5000x1) hz3, View.ld_unit_zero (S := S128x128) hz3, View.ld_unit_zero (S := S1x128) hz3, View.ld_unit_zero (S := S256x128) hz3, View.ld_unit_zero (S := S1x256) hz3]
  rw [k3_pay2_pay8_apply]
  refine congrArg (s (ix2 g q) + ·) (Finset.sum_congr rfl fun r _ => ?_)
  rw [rows3_apply]

theorem cStep3_apply (x3 : Vec Ideal S5000x1 .i32) (n : Vec Ideal S1x256 .f32) (g : Fin 256) :
    cStep3 (F := Ideal) x3 n (ix2 0 g)
      = n (ix2 0 g) + ∑ r : Fin 5000, (if x3 (ix2 r 0) = BitVec.ofNat 32 g.val then (1 : EReal) else 0) := by
  unfold cStep3 hot3
  rw [View.canon_unit_zero hz3]
  simp only [View.ld_unit_zero (S := S5000x128) hz3, View.ld_unit_zero (S := S5000x1) hz3, View.ld_unit_zero (S := S128x128) hz3, View.ld_unit_zero (S := S1x128) hz3, View.ld_unit_zero (S := S256x128) hz3, View.ld_unit_zero (S := S1x256) hz3]
  exact k3_pay3_pay8_apply x3 n g

theorem out3_7_apply (n : Vec Ideal S1x256 .f32) (s : Vec Ideal S256x128 .f32) (g : Fin 256) (q : Fin 128) :
    out3_7 (F := Ideal) n s (ix2 g q) = Ideal.div (s (ix2 g q)) (max (n (ix2 0 g)) Cert.Spec.one) := by
  unfold out3_7
  rw [View.canon_unit_zero hz3]
  simp only [View.ld_unit_zero (S := S5000x128) hz3, View.ld_unit_zero (S := S5000x1) hz3, View.ld_unit_zero (S := S128x128) hz3, View.ld_unit_zero (S := S1x128) hz3, View.ld_unit_zero (S := S256x128) hz3, View.ld_unit_zero (S := S1x256) hz3]
  exact k3_pay4_apply n s g q

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

variable (V : (c : Dev nD) → (b : Ref sig .tc) → Buf (Elt Ideal) ((c : Thread nD τ).loc b)) (c : Dev nD)

def row3 (t : Fin cfg3.N) (r : Fin 5000) : Fin 100000 :=
  ⟨5000 * t.val + r.val, by have := t.isLt; have := r.isLt; have h : cfg3.N = 20 := N_3; omega⟩

theorem blk3_0 (A : Buf (Elt Ideal) ((c : Thread nD τ).loc main_v18)) (t : Fin cfg3.N) (r : Fin 5000) (k : Fin 128) :
    ((cfg3.win 0).blk t).view.read (Elt Ideal) A (ix2 r k) = A (ix2 (row3 t r) k) := by
  obtain ⟨e0, e1, -⟩ := idx3 t
  show A (((cfg3.win 0).blk t).view.emb (ix2 r k)) = A (ix2 (row3 t r) k)
  refine congrArg A (funext fun a => Fin.ext ?_)
  match a with
  | ⟨0, _⟩ => show win3_0.index t (0 : Fin 2) * 5000 + 1 * r.val = 5000 * t.val + r.val; omega
  | ⟨1, _⟩ => show win3_0.index t (1 : Fin 2) * 128 + 1 * k.val = k.val; omega

theorem blk3_1 (A : Buf (Elt Ideal) ((c : Thread nD τ).loc main_v24)) (t : Fin cfg3.N) (r : Fin 5000) (k : Fin 1) :
    ((cfg3.win 1).blk t).view.read (Elt Ideal) A (ix2 r k) = A (ix2 (row3 t r) k) := by
  obtain ⟨-, -, e0, e1, -⟩ := idx3 t
  show A (((cfg3.win 1).blk t).view.emb (ix2 r k)) = A (ix2 (row3 t r) k)
  refine congrArg A (funext fun a => Fin.ext ?_)
  match a with
  | ⟨0, _⟩ => show win3_1.index t (0 : Fin 2) * 5000 + 1 * r.val = 5000 * t.val + r.val; omega
  | ⟨1, _⟩ => show win3_1.index t (1 : Fin 2) * 1 + 1 * k.val = k.val; omega

theorem blk3_2 (A : Buf (Elt Ideal) ((c : Thread nD τ).loc main_v3_0)) (t : Fin cfg3.N) (r : Fin 5000) (k : Fin 128) :
    ((cfg3.win 2).blk t).view.read (Elt Ideal) A (ix2 r k) = A (ix2 (row3 t r) k) := by
  obtain ⟨-, -, -, -, e0, e1, -⟩ := idx3 t
  show A (((cfg3.win 2).blk t).view.emb (ix2 r k)) = A (ix2 (row3 t r) k)
  refine congrArg A (funext fun a => Fin.ext ?_)
  match a with
  | ⟨0, _⟩ => show win3_2.index t (0 : Fin 2) * 5000 + 1 * r.val = 5000 * t.val + r.val; omega
  | ⟨1, _⟩ => show win3_2.index t (1 : Fin 2) * 128 + 1 * k.val = k.val; omega

theorem blk3_3 (A : Buf (Elt Ideal) ((c : Thread nD τ).loc main_v71)) (t : Fin cfg3.N) (r : Fin 5000) (k : Fin 1) :
    ((cfg3.win 3).blk t).view.read (Elt Ideal) A (ix2 r k) = A (ix2 (row3 t r) k) := by
  obtain ⟨-, -, -, -, -, -, e0, e1, -⟩ := idx3 t
  show A (((cfg3.win 3).blk t).view.emb (ix2 r k)) = A (ix2 (row3 t r) k)
  refine congrArg A (funext fun a => Fin.ext ?_)
  match a with
  | ⟨0, _⟩ => show win3_3.index t (0 : Fin 2) * 5000 + 1 * r.val = 5000 * t.val + r.val; omega
  | ⟨1, _⟩ => show win3_3.index t (1 : Fin 2) * 1 + 1 * k.val = k.val; omega

theorem blk3_4 (A : Buf (Elt Ideal) ((c : Thread nD τ).loc main_arg11)) (t : Fin cfg3.N) :
    ((cfg3.win 4).blk t).view.read (Elt Ideal) A = A := by
  obtain ⟨-, -, -, -, -, -, -, -, e0, e1, -⟩ := idx3 t
  funext j
  show A (((cfg3.win 4).blk t).view.emb j) = A j
  refine congrArg A (funext fun a => Fin.ext ?_)
  match a with
  | ⟨0, _⟩ => show win3_4.index t (0 : Fin 2) * 128 + 1 * (j 0).val = (j 0).val; omega
  | ⟨1, _⟩ => show win3_4.index t (1 : Fin 2) * 128 + 1 * (j 1).val = (j 1).val; omega

theorem blk3_5 (A : Buf (Elt Ideal) ((c : Thread nD τ).loc main_v72)) (t : Fin cfg3.N) :
    ((cfg3.win 5).blk t).view.read (Elt Ideal) A = A := by
  obtain ⟨-, -, -, -, -, -, -, -, -, -, e0, e1, -⟩ := idx3 t
  funext j
  show A (((cfg3.win 5).blk t).view.emb j) = A j
  refine congrArg A (funext fun a => Fin.ext ?_)
  match a with
  | ⟨0, _⟩ => show win3_5.index t (0 : Fin 2) * 1 + 1 * (j 0).val = (j 0).val; omega
  | ⟨1, _⟩ => show win3_5.index t (1 : Fin 2) * 128 + 1 * (j 1).val = (j 1).val; omega

theorem blk3_6 (A : Buf (Elt Ideal) ((c : Thread nD τ).loc main_arg13)) (t : Fin cfg3.N) :
    ((cfg3.win 6).blk t).view.read (Elt Ideal) A = A := by
  obtain ⟨-, -, -, -, -, -, -, -, -, -, -, -, e0, e1, -⟩ := idx3 t
  funext j
  show A (((cfg3.win 6).blk t).view.emb j) = A j
  refine congrArg A (funext fun a => Fin.ext ?_)
  match a with
  | ⟨0, _⟩ => show win3_6.index t (0 : Fin 2) * 128 + 1 * (j 0).val = (j 0).val; omega
  | ⟨1, _⟩ => show win3_6.index t (1 : Fin 2) * 128 + 1 * (j 1).val = (j 1).val; omega

theorem blk3_7 (A : Buf (Elt Ideal) ((c : Thread nD τ).loc main_v73)) (t : Fin cfg3.N) :
    ((cfg3.win 7).blk t).view.read (Elt Ideal) A = A := by
  obtain ⟨-, -, -, -, -, -, -, -, -, -, -, -, -, -, e0, e1⟩ := idx3 t
  funext j
  show A (((cfg3.win 7).blk t).view.emb j) = A j
  refine congrArg A (funext fun a => Fin.ext ?_)
  match a with
  | ⟨0, _⟩ => show win3_7.index t (0 : Fin 2) * 256 + 1 * (j 0).val = (j 0).val; omega
  | ⟨1, _⟩ => show win3_7.index t (1 : Fin 2) * 128 + 1 * (j 1).val = (j 1).val; omega

theorem mem_blk3_7 (t : Fin cfg3.N) (i : S256x128.Idx) : i ∈ ((cfg3.win 7).blk t).view.set := by
  obtain ⟨-, -, -, -, -, -, -, -, -, -, -, -, -, -, e0, e1⟩ := idx3 t
  show i ∈ ((View.whole main_v73).slice (win3_7.rect t)).set
  rw [View.set_slice_whole, Rect.mem_set_unit]
  intro a
  have h0 : (i 0).val < 256 := (i 0).isLt
  have h1 : (i 1).val < 128 := (i 1).isLt
  match a with
  | ⟨0, _⟩ => show win3_7.index t (0 : Fin 2) * 256 ≤ (i 0).val ∧ (i 0).val < win3_7.index t (0 : Fin 2) * 256 + 256; omega
  | ⟨1, _⟩ => show win3_7.index t (1 : Fin 2) * 128 ≤ (i 1).val ∧ (i 1).val < win3_7.index t (1 : Fin 2) * 128 + 128; omega

abbrev X3 : Cert.Spec.Mat 100000 128 :=
  Cert.Spec.relu1 (Cert.Spec.sage (V c main_v18) (fun p => V c main_v24 (ix2 p 0)) (V c main_arg11) (fun q => V c main_v72 (ix2 0 q)) (V c main_v3_0) (V c main_arg13))

abbrev B3 : Fin 100000 → BitVec 32 := fun n => V c main_v71 (ix2 n 0)

theorem X3_apply (n : Fin 100000) (q : Fin 128) :
    X3 V c (ix2 n q) = max (Cert.Spec.sageC (V c main_v18) (fun p => V c main_v24 (ix2 p 0)) (V c main_arg11) (fun q => V c main_v72 (ix2 0 q)) (V c main_v3_0) (V c main_arg13) n q) 0 := rfl

theorem sStepAt3_apply (t : Fin cfg3.N) (s : Vec Ideal S256x128 .f32) (g : Fin 256) (q : Fin 128) :
    sStepAt3 V c t s (ix2 g q)
      = s (ix2 g q) + ∑ r : Fin 5000, (if B3 V c (row3 t r) = BitVec.ofNat 32 g.val then (1 : EReal) else 0) * X3 V c (ix2 (row3 t r) q) := by
  unfold sStepAt3
  refine (sStep3_apply (iblk3 V c 0 t) (iblk3 V c 1 t) (iblk3 V c 2 t) (iblk3 V c 3 t) (iblk3 V c 4 t) (iblk3 V c 5 t) (iblk3 V c 6 t) s g q).trans ?_
  refine congrArg (s (ix2 g q) + ·) (Finset.sum_congr rfl fun r _ => ?_)
  have hb : iblk3 V c 3 t (ix2 r 0) = B3 V c (row3 t r) := blk3_3 c (V c main_v71) t r 0
  have hm : Cert.Spec.sageC (N := 5000) (iblk3 V c 0 t) (fun p => iblk3 V c 1 t (ix2 p 0)) (iblk3 V c 4 t) (fun q => iblk3 V c 5 t (ix2 0 q)) (iblk3 V c 2 t) (iblk3 V c 6 t) r q
      = Cert.Spec.sageC (V c main_v18) (fun p => V c main_v24 (ix2 p 0)) (V c main_arg11) (fun q => V c main_v72 (ix2 0 q)) (V c main_v3_0) (V c main_arg13) (row3 t r) q :=
    sageC_congr _ _ _ _ _ _ _ _ _ _ _ _ r (row3 t r) q (fun k => blk3_0 c (V c main_v18) t r k) (blk3_1 c (V c main_v24) t r 0)
      (blk3_4 c (V c main_arg11) t) (funext fun q' => congrFun (blk3_5 c (V c main_v72) t) (ix2 0 q'))
      (fun k => blk3_2 c (V c main_v3_0) t r k) (blk3_6 c (V c main_arg13) t)
  rw [X3_apply]
  exact congrArg₂ (fun (b : BitVec 32) (m : EReal) => (if b = BitVec.ofNat 32 g.val then (1 : EReal) else 0) * max m 0) hb hm

theorem cStepAt3_apply (t : Fin cfg3.N) (n : Vec Ideal S1x256 .f32) (g : Fin 256) :
    cStepAt3 V c t n (ix2 0 g)
      = n (ix2 0 g) + ∑ r : Fin 5000, (if B3 V c (row3 t r) = BitVec.ofNat 32 g.val then (1 : EReal) else 0) := by
  unfold cStepAt3
  refine (cStep3_apply (iblk3 V c 3 t) n g).trans ?_
  refine congrArg (n (ix2 0 g) + ·) (Finset.sum_congr rfl fun r _ => ?_)
  have hb : iblk3 V c 3 t (ix2 r 0) = B3 V c (row3 t r) := blk3_3 c (V c main_v71) t r 0
  exact congrArg (fun (b : BitVec 32) => (if b = BitVec.ofNat 32 g.val then (1 : EReal) else 0)) hb

def tile3 (p : Nat) (r : Fin 5000) : Fin (5000 * 20) :=
  if h : p < cfg3.N then row3 ⟨p, h⟩ r else ⟨0, by norm_num⟩

theorem tile3_val (p : Nat) (hp : p < 20) (r : Fin 5000) : (tile3 p r).val = 5000 * p + r.val := by
  unfold tile3
  rw [dif_pos (lt_of_lt_of_eq hp N_3.symm)]
  rfl

theorem sAcc3_last (g : Fin 256) (q : Fin 128) :
    sAcc3 V c 20 (ix2 g q)
      = 0 + ∑ n ∈ Finset.univ.filter (fun n : Fin 100000 => (B3 V c n).toInt = (g.val : ℤ)), X3 V c (ix2 n q) := by
  refine Cert.LibPool.running_onehot_sum (T := 5000) (P := 20) (C := 256) (by norm_num) (B3 V c) (fun n => X3 V c (ix2 n q)) g
    tile3 tile3_val 0 (fun p => sAcc3 V c p (ix2 g q)) ?_ ?_
  · show sZero3 (F := Ideal) (ix2 g q) = 0
    unfold sZero3
    rw [View.canon_unit_zero hz3]
    exact k3_pay5_apply _
  · intro p hp
    have hp' : p < cfg3.N := lt_of_lt_of_eq hp N_3.symm
    show sAcc3 V c (p + 1) (ix2 g q) = _
    rw [sAcc3_succ V c p hp', sStepAt3_apply]
    congr 1
    refine Finset.sum_congr rfl fun r _ => ?_
    have e : tile3 p r = row3 ⟨p, hp'⟩ r := dif_pos hp'
    rw [e]

theorem cAcc3_last (g : Fin 256) :
    cAcc3 V c 20 (ix2 0 g)
      = 0 + ∑ _n ∈ Finset.univ.filter (fun n : Fin 100000 => (B3 V c n).toInt = (g.val : ℤ)), (1 : EReal) := by
  refine Cert.LibPool.running_onehot_count (T := 5000) (P := 20) (C := 256) (by norm_num) (B3 V c) g
    tile3 tile3_val 0 (fun p => cAcc3 V c p (ix2 0 g)) ?_ ?_
  · show cZero3 (F := Ideal) (ix2 0 g) = 0
    unfold cZero3
    rw [View.canon_unit_zero hz3]
    exact k3_pay6_apply _
  · intro p hp
    have hp' : p < cfg3.N := lt_of_lt_of_eq hp N_3.symm
    show cAcc3 V c (p + 1) (ix2 0 g) = _
    rw [cAcc3_succ V c p hp', cStepAt3_apply]
    congr 1
    refine Finset.sum_congr rfl fun r _ => ?_
    have e : tile3 p r = row3 ⟨p, hp'⟩ r := dif_pos hp'
    rw [e]

theorem arr3_7 :
    (dat3 (F := Ideal) V c).arrAt 7 cfg3.N
      = Cert.Spec.pool (Cert.Spec.relu1 (Cert.Spec.sage (V c main_v18) (fun p => V c main_v24 (ix2 p 0)) (V c main_arg11) (fun q => V c main_v72 (ix2 0 q)) (V c main_v3_0) (V c main_arg13)))
          (fun n => V c main_v71 (ix2 n 0)) := by
  have hN : cfg3.N = 20 := N_3
  refine (dat3 (F := Ideal) V c).arrAt_eq_of_cover 7 _ (fun t hf => ?_) (fun i => ?_)
  · have ht : t.val = 19 := by
      have h1 := (flush3_7 t).mp hf
      have h2 := t.isLt
      omega
    show (cfg3.win 7).cut (grid3.coords t) ((dat3 (F := Ideal) V c).after 7 t) = _
    rw [after3_7, blk3_7 c, ht]
    funext j
    obtain ⟨g, q, rfl⟩ : ∃ (g : Fin 256) (q : Fin 128), j = ix2 g q := ⟨j 0, j 1, eq_ix2 j⟩
    show out3_7 (F := Ideal) (cAcc3 V c 20) (sAcc3 V c 20) (ix2 g q) = _
    rw [out3_7_apply, sAcc3_last, cAcc3_last, zero_add, zero_add, Cert.Spec.pool_apply]
    unfold Cert.Spec.poolC
    have e1 : Cert.Spec.one = (1 : EReal) := ofBits_one_f32
    rw [e1]
  · exact ⟨⟨19, by rw [hN]; norm_num⟩, (flush3_7 _).mpr rfl, mem_blk3_7 _ i⟩

end Cert.KernelIdeal.Hand

end
-- ==== Proof.KI.Val4.lean ====
import proofs.«420848_j14422500180474_3_alg».proof.Proof.KI.Dat4
import proofs.«420848_j14422500180474_3_alg».proof.Proof.Spec
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem lhs_head_0 (i : S256x16.Idx) (q : dot_S256x128_S128x16_S256x16_1_0_0_1_n_n.contr.Idx) :
    (dot_S256x128_S128x16_S256x16_1_0_0_1_n_n.lhsIdx i q 0).val = (i 0).val := by
  unfold DotDims.lhsIdx
  rw [dif_neg (show ¬(0 : Fin S256x128.rank) ∈ dot_S256x128_S128x16_S256x16_1_0_0_1_n_n.lhsBatch by decide), dif_pos (show (0 : Fin S256x128.rank) ∈ dot_S256x128_S128x16_S256x16_1_0_0_1_n_n.lhsNonContracting by decide)]
  rfl

theorem lhs_head_1 (i : S256x16.Idx) (q : dot_S256x128_S128x16_S256x16_1_0_0_1_n_n.contr.Idx) :
    (dot_S256x128_S128x16_S256x16_1_0_0_1_n_n.lhsIdx i q 1).val = (q ⟨0, by decide⟩).val :=
  dot_S256x128_S128x16_S256x16_1_0_0_1_n_n.lhsIdx_val_of_single rfl i q

theorem rhs_head_0 (i : S256x16.Idx) (q : dot_S256x128_S128x16_S256x16_1_0_0_1_n_n.contr.Idx) :
    (dot_S256x128_S128x16_S256x16_1_0_0_1_n_n.rhsIdx i q 0).val = (q ⟨0, by decide⟩).val :=
  dot_S256x128_S128x16_S256x16_1_0_0_1_n_n.rhsIdx_val_of_single rfl i q

theorem rhs_head_1 (i : S256x16.Idx) (q : dot_S256x128_S128x16_S256x16_1_0_0_1_n_n.contr.Idx) :
    (dot_S256x128_S128x16_S256x16_1_0_0_1_n_n.rhsIdx i q 1).val = (i 1).val := by
  unfold DotDims.rhsIdx
  rw [dif_neg (show ¬(1 : Fin S128x16.rank) ∈ dot_S256x128_S128x16_S256x16_1_0_0_1_n_n.rhsBatch by decide), dif_pos (show (1 : Fin S128x16.rank) ∈ dot_S256x128_S128x16_S256x16_1_0_0_1_n_n.rhsNonContracting by decide)]
  rfl

theorem head_matmul_apply {φ₁ φ₂ : FTy} (l : FVec Ideal S256x128 φ₁) (r : FVec Ideal S128x16 φ₂) (g : Fin 256) (o : Fin 16) :
    matmul dot_S256x128_S128x16_S256x16_1_0_0_1_n_n none l r (constant (F := Ideal) S256x16 .f32 0x00000000#32) (ix2 g o)
      = ∑ k : Fin 128, l (ix2 g k) * r (ix2 k o) := by
  simp only [matmul]
  rw [Ideal.matmul_constant_zero_apply, ← Equiv.sum_comp (ValueIdx.contrEquiv1 dot_S256x128_S128x16_S256x16_1_0_0_1_n_n 128 rfl rfl).symm]
  refine Finset.sum_congr rfl fun k _ => ?_
  have hk := ValueIdx.contrEquiv1_symm_val dot_S256x128_S128x16_S256x16_1_0_0_1_n_n 128 rfl rfl k
  have el : dot_S256x128_S128x16_S256x16_1_0_0_1_n_n.lhsIdx (ix2 g o) ((ValueIdx.contrEquiv1 dot_S256x128_S128x16_S256x16_1_0_0_1_n_n 128 rfl rfl).symm k) = ix2 g k := funext fun a => Fin.ext (by
    match a with
    | ⟨0, _⟩ => exact lhs_head_0 _ _
    | ⟨1, _⟩ => exact (lhs_head_1 _ _).trans hk)
  have er : dot_S256x128_S128x16_S256x16_1_0_0_1_n_n.rhsIdx (ix2 g o) ((ValueIdx.contrEquiv1 dot_S256x128_S128x16_S256x16_1_0_0_1_n_n 128 rfl rfl).symm k) = ix2 k o := funext fun a => Fin.ext (by
    match a with
    | ⟨0, _⟩ => exact (rhs_head_0 _ _).trans hk
    | ⟨1, _⟩ => exact rhs_head_1 _ _)
  rw [el, er]

theorem head_bias_apply (b : Vec Ideal S1x16 .f32) (g : Fin 256) (o : Fin 16) :
    broadcastTo S256x16 b broadcasts_S1x16_S256x16 (ix2 g o) = b (ix2 0 o) := by
  refine broadcastTo_apply b broadcasts_S1x16_S256x16 (ix2 g o) (ix2 0 o) fun a => ?_
  match a with
  | ⟨0, _⟩ => rfl
  | ⟨1, _⟩ => rfl

theorem k4_pay1_apply (pa pb : Vec Ideal S256x128 .f32) (w : Vec Ideal S128x16 .f32) (b : Vec Ideal S1x16 .f32) (g : Fin 256) (o : Fin 16) :
    k4_pay1 (F := Ideal) pa pb w b (ix2 g o) = Cert.Spec.headC pa pb w (fun o => b (ix2 0 o)) g o := by
  unfold k4_pay1 Cert.Spec.headC
  simp only [shapeCast_self]
  rw [addf_apply, head_matmul_apply, head_bias_apply]
  rfl

variable (V : (c : Dev nD) → (b : Ref sig .tc) → Buf (Elt Ideal) ((c : Thread nD τ).loc b))

theorem hz4 : (![0, 0] : Fin 2 → Nat) = fun _ => 0 := funext fun a => by fin_cases a <;> rfl

theorem idx_zero4 : ∀ t : Fin cfg4.N, (win4_0.index t (0 : Fin 2) = 0 ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0) :=
  (by decide +kernel : ∀ t : Fin grid4.N, _)

theorem iblk4_0_eq (c : Dev nD) (t : Fin cfg4.N) :
    (iblk4 V c 0 t : Vec Ideal S256x128 .f32) = (V c main_v70 : S256x128.Idx → Elt Ideal .f32) := by
  funext x
  unfold iblk4
  rw [View.read_apply]
  show V c main_v70 (((cfg4.win 0).blk t).view.emb x) = V c main_v70 x
  refine congrArg _ (funext fun a => Fin.ext ?_)
  obtain ⟨⟨e0, e1⟩, -⟩ := idx_zero4 t
  match a with
  | ⟨0, _⟩ => show win4_0.index t (0 : Fin 2) * 256 + 1 * (x 0).val = (x 0).val; omega
  | ⟨1, _⟩ => show win4_0.index t (1 : Fin 2) * 128 + 1 * (x 1).val = (x 1).val; omega

theorem iblk4_1_eq (c : Dev nD) (t : Fin cfg4.N) :
    (iblk4 V c 1 t : Vec Ideal S256x128 .f32) = (V c main_v73 : S256x128.Idx → Elt Ideal .f32) := by
  funext x
  unfold iblk4
  rw [View.read_apply]
  show V c main_v73 (((cfg4.win 1).blk t).view.emb x) = V c main_v73 x
  refine congrArg _ (funext fun a => Fin.ext ?_)
  obtain ⟨-, ⟨e0, e1⟩, -⟩ := idx_zero4 t
  match a with
  | ⟨0, _⟩ => show win4_1.index t (0 : Fin 2) * 256 + 1 * (x 0).val = (x 0).val; omega
  | ⟨1, _⟩ => show win4_1.index t (1 : Fin 2) * 128 + 1 * (x 1).val = (x 1).val; omega

theorem iblk4_2_eq (c : Dev nD) (t : Fin cfg4.N) :
    (iblk4 V c 2 t : Vec Ideal S128x16 .f32) = (V c main_arg20 : S128x16.Idx → Elt Ideal .f32) := by
  funext x
  unfold iblk4
  rw [View.read_apply]
  show V c main_arg20 (((cfg4.win 2).blk t).view.emb x) = V c main_arg20 x
  refine congrArg _ (funext fun a => Fin.ext ?_)
  obtain ⟨-, -, ⟨e0, e1⟩, -⟩ := idx_zero4 t
  match a with
  | ⟨0, _⟩ => show win4_2.index t (0 : Fin 2) * 128 + 1 * (x 0).val = (x 0).val; omega
  | ⟨1, _⟩ => show win4_2.index t (1 : Fin 2) * 16 + 1 * (x 1).val = (x 1).val; omega

theorem iblk4_3_eq (c : Dev nD) (t : Fin cfg4.N) :
    (iblk4 V c 3 t : Vec Ideal S1x16 .f32) = (V c main_v74 : S1x16.Idx → Elt Ideal .f32) := by
  funext x
  unfold iblk4
  rw [View.read_apply]
  show V c main_v74 (((cfg4.win 3).blk t).view.emb x) = V c main_v74 x
  refine congrArg _ (funext fun a => Fin.ext ?_)
  obtain ⟨-, -, -, ⟨e0, e1⟩, -⟩ := idx_zero4 t
  match a with
  | ⟨0, _⟩ => show win4_3.index t (0 : Fin 2) * 1 + 1 * (x 0).val = (x 0).val; omega
  | ⟨1, _⟩ => show win4_3.index t (1 : Fin 2) * 16 + 1 * (x 1).val = (x 1).val; omega

abbrev headOf (c : Dev nD) : S256x16.Idx → Elt Ideal .f32 :=
  Cert.Spec.head (V c main_v70) (V c main_v73) (V c main_arg20) (fun o => V c main_v74 (ix2 0 o))

theorem flushed4_4_eq (c : Dev nD) (t : Fin cfg4.N) :
    (dat4 (F := Ideal) V c).flushed 4 t = ((cfg4.win 4).blk t).view.read (Elt Ideal) (headOf V c) := by
  show (cfg4.win 4).cut (grid4.coords t) ((dat4 V c).after 4 t) = _
  rw [after4_4]
  unfold out4_4
  rw [View.canon_unit_zero hz4]
  simp only [View.ld_unit_zero (S := S256x128) hz4, View.ld_unit_zero (S := S128x16) hz4, View.ld_unit_zero (S := S1x16) hz4]
  rw [iblk4_0_eq, iblk4_1_eq, iblk4_2_eq, iblk4_3_eq]
  funext j
  rw [View.read_apply]
  show k4_pay1 (F := Ideal) (V c main_v70) (V c main_v73) (V c main_arg20) (V c main_v74) j = headOf V c (((cfg4.win 4).blk t).view.emb j)
  have he : ((cfg4.win 4).blk t).view.emb j = j := by
    funext a; apply Fin.ext
    obtain ⟨-, -, -, -, ⟨e0, e1⟩⟩ := idx_zero4 t
    match a with
    | ⟨0, _⟩ => show win4_4.index t (0 : Fin 2) * 256 + 1 * (j 0).val = (j 0).val; omega
    | ⟨1, _⟩ => show win4_4.index t (1 : Fin 2) * 16 + 1 * (j 1).val = (j 1).val; omega
  rw [he]
  obtain ⟨g, o, rfl⟩ : ∃ (g : Fin 256) (o : Fin 16), j = ix2 g o := ⟨j 0, j 1, eq_ix2 j⟩
  exact k4_pay1_apply _ _ _ _ g o

theorem mem_blk4_4 (t : Fin cfg4.N) (i : S256x16.Idx) :
    i ∈ ((cfg4.win 4).blk t).view.set ↔ ∀ a : Fin 2, win4_4.index t a * S256x16.size a ≤ (i a).val ∧ (i a).val < win4_4.index t a * S256x16.size a + S256x16.size a := by
  show i ∈ ((View.whole main_v75).slice (win4_4.rect t)).set ↔ _
  rw [View.set_slice_whole, Rect.mem_set_unit]
  exact Iff.rfl

theorem arr4_4 (c : Dev nD) :
    (dat4 (F := Ideal) V c).arrAt 4 cfg4.N
      = Cert.Spec.head (V c main_v70) (V c main_v73) (V c main_arg20) (fun o => V c main_v74 (ix2 0 o)) :=
  (dat4 (F := Ideal) V c).arrAt_eq_of_cover 4 (headOf V c) (fun t _ => flushed4_4_eq V c t) fun i => by
    refine ⟨t4_0, flush4_4 t4_0, ?_⟩
    rw [mem_blk4_4]
    obtain ⟨-, -, -, -, ⟨e0, e1⟩⟩ := idx_zero4 t4_0
    have h0 : (i 0).val < 256 := (i 0).isLt
    have h1 : (i 1).val < 16 := (i 1).isLt
    intro a
    match a with
    | ⟨0, _⟩ => show win4_4.index t4_0 (0 : Fin 2) * 256 ≤ (i 0).val ∧ (i 0).val < win4_4.index t4_0 (0 : Fin 2) * 256 + 256; omega
    | ⟨1, _⟩ => show win4_4.index t4_0 (1 : Fin 2) * 16 ≤ (i 1).val ∧ (i 1).val < win4_4.index t4_0 (1 : Fin 2) * 16 + 16; omega

end Cert.KernelIdeal.Hand

end
-- ==== Proof.KI.Value.lean ====
import proofs.«420848_j14422500180474_3_alg».proof.Proof.KI.Fold
import proofs.«420848_j14422500180474_3_alg».proof.Proof.KI.Args
import proofs.«420848_j14422500180474_3_alg».proof.Proof.KI.HostVal
import proofs.«420848_j14422500180474_3_alg».proof.Proof.KI.Val0
import proofs.«420848_j14422500180474_3_alg».proof.Proof.KI.Val1
import proofs.«420848_j14422500180474_3_alg».proof.Proof.KI.Val2
import proofs.«420848_j14422500180474_3_alg».proof.Proof.KI.Val3
import proofs.«420848_j14422500180474_3_alg».proof.Proof.KI.Val4
import proofs.«420848_j14422500180474_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
variable (m : (ℓ : Loc nD τ sig) → Buf (Elt Ideal) ℓ) (ρ : Dev nD → PrngReg)

abbrev EK (ei : IVec S2x1600000 32) : Cert.Spec.Mat 100000 128 → Cert.Spec.Mat 100000 128 := fun h => edgeSumK (F := Ideal) ei h

abbrev CK (ei : IVec S2x1600000 32) : Fin 100000 → EReal := fun p => edgeCntK (F := Ideal) ei (ix2 p (0 : Fin 1))

abbrev hA (c : Dev nD) : Cert.Spec.Mat 100000 128 := Cert.Spec.lin (m ((c : Thread nD τ).loc main_arg0)) (m ((c : Thread nD τ).loc main_arg7)) (fun q => (m ((c : Thread nD τ).loc main_arg8)) (ix1 q))

abbrev hB (c : Dev nD) : Cert.Spec.Mat 100000 128 := Cert.Spec.lin (m ((c : Thread nD τ).loc main_arg1)) (m ((c : Thread nD τ).loc main_arg9)) (fun q => (m ((c : Thread nD τ).loc main_arg10)) (ix1 q))

theorem W2_v1_0 (c : Dev nD) : W2 m ρ c (Proc.devRef .tc main_v1_0) = hA m c := by
  rw [show W2 m ρ c (Proc.devRef .tc main_v1_0) = (dat0 (F := Ideal) (V1 m ρ) c).arrAt 3 cfg0.N from W2_arr m ρ c 3, arr0_3]
  have e0 : V1 m ρ c main_arg0 = (m ((c : Thread nD τ).loc main_arg0)) := W1_arg m ρ c main_arg0 (by decide)
  have e7 : V1 m ρ c main_arg7 = (m ((c : Thread nD τ).loc main_arg7)) := W1_arg m ρ c main_arg7 (by decide)
  have e8 : (fun q => V1 m ρ c main_v0 (ix2 (0 : Fin 1) q)) = fun q => (m ((c : Thread nD τ).loc main_arg8)) (ix1 q) := funext fun q => host0_v0 (W0 m ρ c) q
  rw [e0, e7, e8]

theorem W2_v1_1 (c : Dev nD) : W2 m ρ c (Proc.devRef .tc main_v1_1) = hA m c := by
  rw [show W2 m ρ c (Proc.devRef .tc main_v1_1) = (dat0 (F := Ideal) (V1 m ρ) c).arrAt 4 cfg0.N from W2_arr m ρ c 4, arr0_4]
  have e0 : V1 m ρ c main_arg0 = (m ((c : Thread nD τ).loc main_arg0)) := W1_arg m ρ c main_arg0 (by decide)
  have e7 : V1 m ρ c main_arg7 = (m ((c : Thread nD τ).loc main_arg7)) := W1_arg m ρ c main_arg7 (by decide)
  have e8 : (fun q => V1 m ρ c main_v0 (ix2 (0 : Fin 1) q)) = fun q => (m ((c : Thread nD τ).loc main_arg8)) (ix1 q) := funext fun q => host0_v0 (W0 m ρ c) q
  rw [e0, e7, e8]

theorem W4_v3_0 (c : Dev nD) : W4 m ρ c (Proc.devRef .tc main_v3_0) = hB m c := by
  rw [show W4 m ρ c (Proc.devRef .tc main_v3_0) = (dat1 (F := Ideal) (V3 m ρ) c).arrAt 3 cfg1.N from W4_arr m ρ c 3, arr1_3]
  have e1 : V3 m ρ c main_arg1 = (m ((c : Thread nD τ).loc main_arg1)) := W3_arg m ρ c main_arg1 (by decide)
  have e9 : V3 m ρ c main_arg9 = (m ((c : Thread nD τ).loc main_arg9)) := W3_arg m ρ c main_arg9 (by decide)
  have e10 : (fun q => V3 m ρ c main_v2 (ix2 (0 : Fin 1) q)) = fun q => (m ((c : Thread nD τ).loc main_arg10)) (ix1 q) :=
    funext fun q => (host1_v2 (W2 m ρ c) q).trans (congrFun (W2_arg m ρ c main_arg10 (by decide)) _)
  rw [e1, e9, e10]

theorem W4_v3_1 (c : Dev nD) : W4 m ρ c (Proc.devRef .tc main_v3_1) = hB m c := by
  rw [show W4 m ρ c (Proc.devRef .tc main_v3_1) = (dat1 (F := Ideal) (V3 m ρ) c).arrAt 4 cfg1.N from W4_arr m ρ c 4, arr1_4]
  have e1 : V3 m ρ c main_arg1 = (m ((c : Thread nD τ).loc main_arg1)) := W3_arg m ρ c main_arg1 (by decide)
  have e9 : V3 m ρ c main_arg9 = (m ((c : Thread nD τ).loc main_arg9)) := W3_arg m ρ c main_arg9 (by decide)
  have e10 : (fun q => V3 m ρ c main_v2 (ix2 (0 : Fin 1) q)) = fun q => (m ((c : Thread nD τ).loc main_arg10)) (ix1 q) :=
    funext fun q => (host1_v2 (W2 m ρ c) q).trans (congrFun (W2_arg m ρ c main_arg10 (by decide)) _)
  rw [e1, e9, e10]

theorem W4_v1_0 (c : Dev nD) : W4 m ρ c (Proc.devRef .tc main_v1_0) = hA m c :=
  (W4_keep m ρ c main_v1_0 (by decide)).trans <| (W3_keep m ρ c main_v1_0 (by decide)).trans (W2_v1_0 m ρ c)

theorem W4_v1_1 (c : Dev nD) : W4 m ρ c (Proc.devRef .tc main_v1_1) = hA m c :=
  (W4_keep m ρ c main_v1_1 (by decide)).trans <| (W3_keep m ρ c main_v1_1 (by decide)).trans (W2_v1_1 m ρ c)

theorem W6_v70 (c : Dev nD) : W6 m ρ c (Proc.devRef .tc main_v70) =
    Cert.Spec.pool (Cert.Spec.relu2
      (Cert.Spec.sage (EK (m ((c : Thread nD τ).loc main_arg3)) (hB m c)) (CK (m ((c : Thread nD τ).loc main_arg3))) (m ((c : Thread nD τ).loc main_arg14)) (fun q => (m ((c : Thread nD τ).loc main_arg15)) (ix1 q)) (hA m c) (m ((c : Thread nD τ).loc main_arg16)))
      (Cert.Spec.sage (EK (m ((c : Thread nD τ).loc main_arg4)) (hA m c)) (CK (m ((c : Thread nD τ).loc main_arg4))) (m ((c : Thread nD τ).loc main_arg17)) (fun q => (m ((c : Thread nD τ).loc main_arg18)) (ix1 q)) (hA m c) (m ((c : Thread nD τ).loc main_arg19))))
      (fun n => (m ((c : Thread nD τ).loc main_arg5)) (ix1 n)) := by
  rw [show W6 m ρ c (Proc.devRef .tc main_v70) = (dat2 (F := Ideal) (V5 m ρ) c).arrAt 12 cfg2.N from W6_arr m ρ c 12, arr2_12]
  have s0 : V5 m ρ c main_v39 = EK (m ((c : Thread nD τ).loc main_arg3)) (hB m c) := by
    show StableHlo.after hostOps2 (W4 m ρ c) (Proc.devRef .tc main_v39) = _
    rw [host2_v39, W4_arg m ρ c main_arg3 (by decide), W4_v3_1]
  have s1 : V5 m ρ c main_v60 = EK (m ((c : Thread nD τ).loc main_arg4)) (hA m c) := by
    show StableHlo.after hostOps2 (W4 m ρ c) (Proc.devRef .tc main_v60) = _
    rw [host2_v60, W4_arg m ρ c main_arg4 (by decide), W4_v1_1]
  have c0 : (fun p => V5 m ρ c main_v45 (ix2 p (0 : Fin 1))) = CK (m ((c : Thread nD τ).loc main_arg3)) := by
    funext p
    show StableHlo.after hostOps2 (W4 m ρ c) (Proc.devRef .tc main_v45) _ = _
    rw [host2_v45, W4_arg m ρ c main_arg3 (by decide)]
  have c1 : (fun p => V5 m ρ c main_v66 (ix2 p (0 : Fin 1))) = CK (m ((c : Thread nD τ).loc main_arg4)) := by
    funext p
    show StableHlo.after hostOps2 (W4 m ρ c) (Proc.devRef .tc main_v66) _ = _
    rw [host2_v66, W4_arg m ρ c main_arg4 (by decide)]
  have xd : V5 m ρ c main_v1_0 = hA m c := (W5_keep m ρ c main_v1_0 (by decide)).trans (W4_v1_0 m ρ c)
  have b0 : (fun q => V5 m ρ c main_v68 (ix2 (0 : Fin 1) q)) = fun q => (m ((c : Thread nD τ).loc main_arg15)) (ix1 q) :=
    funext fun q => (host2_v68 (W4 m ρ c) q).trans (congrFun (W4_arg m ρ c main_arg15 (by decide)) _)
  have b1 : (fun q => V5 m ρ c main_v69 (ix2 (0 : Fin 1) q)) = fun q => (m ((c : Thread nD τ).loc main_arg18)) (ix1 q) :=
    funext fun q => (host2_v69 (W4 m ρ c) q).trans (congrFun (W4_arg m ρ c main_arg18 (by decide)) _)
  have bt : (fun n => V5 m ρ c main_v67 (ix2 n (0 : Fin 1))) = fun n => (m ((c : Thread nD τ).loc main_arg5)) (ix1 n) :=
    funext fun n => (host2_v67 (W4 m ρ c) n).trans (congrFun (W4_arg m ρ c main_arg5 (by decide)) _)
  have w14 : V5 m ρ c main_arg14 = (m ((c : Thread nD τ).loc main_arg14)) := W5_arg m ρ c main_arg14 (by decide)
  have w16 : V5 m ρ c main_arg16 = (m ((c : Thread nD τ).loc main_arg16)) := W5_arg m ρ c main_arg16 (by decide)
  have w17 : V5 m ρ c main_arg17 = (m ((c : Thread nD τ).loc main_arg17)) := W5_arg m ρ c main_arg17 (by decide)
  have w19 : V5 m ρ c main_arg19 = (m ((c : Thread nD τ).loc main_arg19)) := W5_arg m ρ c main_arg19 (by decide)
  rw [s0, s1, c0, c1, xd, b0, b1, bt, w14, w16, w17, w19]

theorem W8_v73 (c : Dev nD) : W8 m ρ c (Proc.devRef .tc main_v73) =
    Cert.Spec.pool (Cert.Spec.relu1
      (Cert.Spec.sage (EK (m ((c : Thread nD τ).loc main_arg2)) (hA m c)) (CK (m ((c : Thread nD τ).loc main_arg2))) (m ((c : Thread nD τ).loc main_arg11)) (fun q => (m ((c : Thread nD τ).loc main_arg12)) (ix1 q)) (hB m c) (m ((c : Thread nD τ).loc main_arg13))))
      (fun n => (m ((c : Thread nD τ).loc main_arg6)) (ix1 n)) := by
  rw [show W8 m ρ c (Proc.devRef .tc main_v73) = (dat3 (F := Ideal) (V7 m ρ) c).arrAt 7 cfg3.N from W8_arr m ρ c 7, arr3_7]
  have s0 : V7 m ρ c main_v18 = EK (m ((c : Thread nD τ).loc main_arg2)) (hA m c) := by
    refine (W7_keep m ρ c main_v18 (by decide)).trans <| (W6_keep m ρ c main_v18 (by decide)).trans ?_
    show StableHlo.after hostOps2 (W4 m ρ c) (Proc.devRef .tc main_v18) = _
    rw [host2_v18, W4_arg m ρ c main_arg2 (by decide), W4_v1_1]
  have c0 : (fun p => V7 m ρ c main_v24 (ix2 p (0 : Fin 1))) = CK (m ((c : Thread nD τ).loc main_arg2)) := by
    funext p
    refine (congrFun ((W7_keep m ρ c main_v24 (by decide)).trans (W6_keep m ρ c main_v24 (by decide))) _).trans ?_
    show StableHlo.after hostOps2 (W4 m ρ c) (Proc.devRef .tc main_v24) _ = _
    rw [host2_v24, W4_arg m ρ c main_arg2 (by decide)]
  have xd : V7 m ρ c main_v3_0 = hB m c :=
    (W7_keep m ρ c main_v3_0 (by decide)).trans <| (W6_keep m ρ c main_v3_0 (by decide)).trans <|
      (W5_keep m ρ c main_v3_0 (by decide)).trans (W4_v3_0 m ρ c)
  have b0 : (fun q => V7 m ρ c main_v72 (ix2 (0 : Fin 1) q)) = fun q => (m ((c : Thread nD τ).loc main_arg12)) (ix1 q) :=
    funext fun q => (host3_v72 (W6 m ρ c) q).trans (congrFun (W6_arg m ρ c main_arg12 (by decide)) _)
  have bt : (fun n => V7 m ρ c main_v71 (ix2 n (0 : Fin 1))) = fun n => (m ((c : Thread nD τ).loc main_arg6)) (ix1 n) :=
    funext fun n => (host3_v71 (W6 m ρ c) n).trans (congrFun (W6_arg m ρ c main_arg6 (by decide)) _)
  have w11 : V7 m ρ c main_arg11 = (m ((c : Thread nD τ).loc main_arg11)) := W7_arg m ρ c main_arg11 (by decide)
  have w13 : V7 m ρ c main_arg13 = (m ((c : Thread nD τ).loc main_arg13)) := W7_arg m ρ c main_arg13 (by decide)
  rw [s0, c0, xd, b0, bt, w11, w13]

theorem W10_v75 (c : Dev nD) : W10 m ρ c (Proc.devRef .tc main_v75) =
    Cert.Spec.net (m ((c : Thread nD τ).loc main_arg0)) (m ((c : Thread nD τ).loc main_arg1)) (m ((c : Thread nD τ).loc main_arg7)) (fun q => (m ((c : Thread nD τ).loc main_arg8)) (ix1 q)) (m ((c : Thread nD τ).loc main_arg9)) (fun q => (m ((c : Thread nD τ).loc main_arg10)) (ix1 q))
      (EK (m ((c : Thread nD τ).loc main_arg2))) (EK (m ((c : Thread nD τ).loc main_arg3))) (EK (m ((c : Thread nD τ).loc main_arg4))) (CK (m ((c : Thread nD τ).loc main_arg2))) (CK (m ((c : Thread nD τ).loc main_arg3))) (CK (m ((c : Thread nD τ).loc main_arg4)))
      (m ((c : Thread nD τ).loc main_arg11)) (fun q => (m ((c : Thread nD τ).loc main_arg12)) (ix1 q)) (m ((c : Thread nD τ).loc main_arg13)) (m ((c : Thread nD τ).loc main_arg14)) (fun q => (m ((c : Thread nD τ).loc main_arg15)) (ix1 q)) (m ((c : Thread nD τ).loc main_arg16))
      (m ((c : Thread nD τ).loc main_arg17)) (fun q => (m ((c : Thread nD τ).loc main_arg18)) (ix1 q)) (m ((c : Thread nD τ).loc main_arg19)) (fun n => (m ((c : Thread nD τ).loc main_arg5)) (ix1 n)) (fun n => (m ((c : Thread nD τ).loc main_arg6)) (ix1 n))
      (m ((c : Thread nD τ).loc main_arg20)) (fun o => (m ((c : Thread nD τ).loc main_arg21)) (ix1 o)) := by
  rw [show W10 m ρ c (Proc.devRef .tc main_v75) = (dat4 (F := Ideal) (V9 m ρ) c).arrAt 4 cfg4.N from W10_arr m ρ c 4, arr4_4]
  have pa : V9 m ρ c main_v70 = _ :=
    (W9_keep m ρ c main_v70 (by decide)).trans <| (W8_keep m ρ c main_v70 (by decide)).trans <|
      (W7_keep m ρ c main_v70 (by decide)).trans (W6_v70 m ρ c)
  have pb : V9 m ρ c main_v73 = _ := (W9_keep m ρ c main_v73 (by decide)).trans (W8_v73 m ρ c)
  have w20 : V9 m ρ c main_arg20 = (m ((c : Thread nD τ).loc main_arg20)) := W9_arg m ρ c main_arg20 (by decide)
  have b21 : (fun o => V9 m ρ c main_v74 (ix2 (0 : Fin 1) o)) = fun o => (m ((c : Thread nD τ).loc main_arg21)) (ix1 o) :=
    funext fun o => (host4_v74 (W8 m ρ c) o).trans (congrFun (W8_arg m ρ c main_arg21 (by decide)) _)
  rw [pa, pb, w20, b21]
  rfl

end Cert.KernelIdeal.Hand

end
-- ==== Proof.LibSegment.lean ====
import Idealize.ShloMosaic.PureOps.Ideal
import Idealize.ShloMosaic.Lib.ValueIdx

noncomputable section

namespace Cert.LibSegment

open Idealize.ShloMosaic Idealize.ShloMosaic.ValueIdx

def idxEquiv1 {n : Nat} : (⟨1, ![n]⟩ : Shape).Idx ≃ Fin n where
  toFun i := i 0
  invFun := ix1
  left_inv i := (eq_ix1 i).symm
  right_inv _ := rfl

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · rw [Option.some.injEq]
    constructor
    · intro e a
      rw [← e]
      have := h a
      simp only []
      omega
    · intro e
      funext a
      refine Fin.ext ?_
      have := e a
      simp only []
      omega
  · constructor
    · intro e; cases e
    · intro e
      refine absurd (fun a => ?_) h
      have := e a
      have := (i a).isLt
      omega

abbrev segDims1 (N C : Nat) (wf : ScatterDims.WF ⟨1, ![C]⟩ ⟨2, ![N, 1]⟩ ⟨1, ![N]⟩ [] [0] [0] 1) :
    ScatterDims ⟨1, ![C]⟩ ⟨2, ![N, 1]⟩ ⟨1, ![N]⟩ where
  updateWindowDims := []
  insertedWindowDims := [0]
  scatterDimsToOperandDims := [0]
  indexVectorDim := 1
  wf := wf

theorem seg1_start {N C w : Nat} (wf : ScatterDims.WF ⟨1, ![C]⟩ ⟨2, ![N, 1]⟩ ⟨1, ![N]⟩ [] [0] [0] 1)
    (idx : IVec ⟨2, ![N, 1]⟩ w) (n : Fin N) :
    (segDims1 N C wf).start (ix1 n) idx 0 = (idx (ix2 n (0 : Fin 1))).toInt := by
  unfold ScatterDims.start
  rw [dif_pos (show (0 : Fin 1) ∈ (segDims1 N C wf).scatterDimsToOperandDims from List.mem_singleton.mpr rfl)]
  have hsi : (segDims1 N C wf).siIdx (ix1 n) ⟨List.idxOf (0 : Fin 1) (segDims1 N C wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem seg1_window {N C : Nat} (wf : ScatterDims.WF ⟨1, ![C]⟩ ⟨2, ![N, 1]⟩ ⟨1, ![N]⟩ [] [0] [0] 1)
    (j : (⟨1, ![N]⟩ : Shape).Idx) : (segDims1 N C wf).window j 0 = 0 := by
  unfold ScatterDims.window
  rw [dif_neg]
  show (0 : Fin 1) ∉ (List.finRange 1).filter (· ∉ [(0 : Fin 1)])
  decide

abbrev segDims2 (N C B : Nat) (wf : ScatterDims.WF ⟨2, ![C, B]⟩ ⟨2, ![N, 1]⟩ ⟨2, ![N, B]⟩ [1] [0] [0] 1) :
    ScatterDims ⟨2, ![C, B]⟩ ⟨2, ![N, 1]⟩ ⟨2, ![N, B]⟩ where
  updateWindowDims := [1]
  insertedWindowDims := [0]
  scatterDimsToOperandDims := [0]
  indexVectorDim := 1
  wf := wf

section Seg2

variable {N C B w : Nat} (wf : ScatterDims.WF ⟨2, ![C, B]⟩ ⟨2, ![N, 1]⟩ ⟨2, ![N, B]⟩ [1] [0] [0] 1)
  (idx : IVec ⟨2, ![N, 1]⟩ w)

theorem seg2_start0 (n : Fin N) (b' : Fin B) :
    (segDims2 N C B wf).start (ix2 n b') idx 0 = (idx (ix2 n (0 : Fin 1))).toInt := by
  unfold ScatterDims.start
  rw [dif_pos (show (0 : Fin 2) ∈ (segDims2 N C B wf).scatterDimsToOperandDims from List.mem_singleton.mpr rfl)]
  have hsi : (segDims2 N C B wf).siIdx (ix2 n b') ⟨List.idxOf (0 : Fin 2) (segDims2 N C B wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

theorem seg2_start1 (j : (⟨2, ![N, B]⟩ : Shape).Idx) : (segDims2 N C B wf).start j idx 1 = 0 := by
  unfold ScatterDims.start
  rw [dif_neg]
  show (1 : Fin 2) ∉ [(0 : Fin 2)]
  decide

theorem seg2_window0 (j : (⟨2, ![N, B]⟩ : Shape).Idx) : (segDims2 N C B wf).window j 0 = 0 := by
  unfold ScatterDims.window
  rw [dif_neg]
  show (0 : Fin 2) ∉ (List.finRange 2).filter (· ∉ [(0 : Fin 2)])
  decide

theorem seg2_window1 (n : Fin N) (b' : Fin B) : (segDims2 N C B wf).window (ix2 n b') 1 = b'.val := by
  unfold ScatterDims.window
  have h1 : (1 : Fin 2) ∈ (segDims2 N C B wf).sKept := by
    show (1 : Fin 2) ∈ (List.finRange 2).filter (· ∉ [(0 : Fin 2)])
    decide
  rw [dif_pos h1]
  rfl

theorem seg2_resultIdx?_iff (n : Fin N) (b' : Fin B) (c : Fin C) (b : Fin B) :
    (segDims2 N C B wf).resultIdx? (ix2 n b') idx = some (ix2 c b)
      ↔ (idx (ix2 n (0 : Fin 1))).toInt = (c.val : ℤ) ∧ b' = b := by
  rw [resultIdx?_eq_some_iff, Fin.forall_fin_two]
  show (segDims2 N C B wf).start (ix2 n b') idx 0 + ((segDims2 N C B wf).window (ix2 n b') 0 : ℤ) = (c.val : ℤ) ∧
     (segDims2 N C B wf).start (ix2 n b') idx 1 + ((segDims2 N C B wf).window (ix2 n b') 1 : ℤ) = (b.val : ℤ) ↔ _
  rw [seg2_start0, seg2_start1, seg2_window0, seg2_window1, Fin.ext_iff]
  omega

end Seg2

theorem scatterAdd_seg2 {N C B w : Nat} (wf : ScatterDims.WF ⟨2, ![C, B]⟩ ⟨2, ![N, 1]⟩ ⟨2, ![N, B]⟩ [1] [0] [0] 1)
    (x : (⟨2, ![C, B]⟩ : Shape).Idx → EReal) (idx : IVec ⟨2, ![N, 1]⟩ w) (upd : (⟨2, ![N, B]⟩ : Shape).Idx → EReal)
    (c : Fin C) (b : Fin B) :
    Ideal.hostScatterAdd (segDims2 N C B wf) x idx upd (ix2 c b)
      = x (ix2 c b) + ∑ n ∈ Finset.univ.filter (fun n : Fin N => (idx (ix2 n (0 : Fin 1))).toInt = (c.val : ℤ)), upd (ix2 n b) := by
  unfold Ideal.hostScatterAdd
  congr 1
  have key : ∀ j : (⟨2, ![N, B]⟩ : Shape).Idx, (segDims2 N C B wf).resultIdx? j idx = some (ix2 c b) →
      (idx (ix2 (idxEquiv2 j).1 (0 : Fin 1))).toInt = (c.val : ℤ) ∧ j = ix2 (idxEquiv2 j).1 b := by
    intro j hj
    obtain ⟨n, b', rfl⟩ : ∃ n b', j = ix2 n b' := ⟨_, _, eq_ix2 j⟩
    obtain ⟨h1, rfl⟩ := (seg2_resultIdx?_iff wf idx n b' c b).mp hj
    exact ⟨h1, rfl⟩
  refine Finset.sum_nbij' (fun j => (idxEquiv2 j).1) (fun n => ix2 n b) ?_ ?_ ?_ ?_ ?_
  · intro j hj
    rw [Finset.mem_filter] at hj ⊢
    exact ⟨Finset.mem_univ _, (key j hj.2).1⟩
  · intro n hn
    rw [Finset.mem_filter] at hn ⊢
    exact ⟨Finset.mem_univ _, (seg2_resultIdx?_iff wf idx n b c b).mpr ⟨hn.2, rfl⟩⟩
  · intro j hj
    rw [Finset.mem_filter] at hj
    exact (key j hj.2).2.symm
  · intro n _
    rfl
  · intro j hj
    rw [Finset.mem_filter] at hj
    exact congrArg upd (key j hj.2).2

section Gather

variable {α : Type}

abbrev takeDims1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

abbrev alongDims (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

end Gather

end Cert.LibSegment

end
-- ==== Proof.RefEdge.lean ====
import proofs.«420848_j14422500180474_3_alg».proof.Proof.Gen.ReferenceIdeal
import proofs.«420848_j14422500180474_3_alg».proof.Proof.Spec

noncomputable section

namespace Cert.RefValue

open Cert.ReferenceIdeal Cert.ReferenceIdeal.Gen
open Idealize.ShloMosaic Idealize.ShloMosaic.ValueIdx

abbrev Arr (s : Shape) (e : EltTy) : Type := (⟨s, e⟩ : BufTy).Contents (Elt Ideal)

abbrev EdgeArr : Type := Arr S2x1600000 .i32

def srcRow (ei : EdgeArr) : Arr S1600000 .i32 :=
  shapeCast _ (extractStridedSlice S1x1600000 ![0, 0] ei slices_S2x1600000_S1x1600000_0_0) shapeCasts_S1x1600000_S1600000

def dstRow (ei : EdgeArr) : Arr S1600000 .i32 :=
  shapeCast _ (extractStridedSlice S1x1600000 ![1, 0] ei slices_S2x1600000_S1x1600000_1_0) shapeCasts_S1x1600000_S1600000

def srcIds (ei : EdgeArr) : Arr S1600000x1 .i32 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32)))
      (srcRow ei))

def dstIds (ei : EdgeArr) : Arr S1600000x1 .i32 :=
  broadcastInDim S1600000x1 ![0] bcast_S1600000_S1600000x1_0 (dstRow ei)

def edgeSumR (ei : EdgeArr) (h : Cert.Spec.Mat 100000 128) : Cert.Spec.Mat 100000 128 :=
  Host.scatterAdd (F := Ideal) scatter_S100000x128_S1600000x1_S1600000x128_1_0_0_1
    (broadcastInDim S100000x128 ![] bcast_S_S100000x128 (constant (F := Ideal) S_ .f32 0x00000000#32))
    (dstIds ei)
    (Host.gather gather_S100000x128_S1600000x1_S1600000x128_1_0_n_n_0_1_1128 (h : Arr S100000x128 .f32) (srcIds ei))

def edgeCntR (ei : EdgeArr) : Fin 100000 → EReal := fun p =>
  Host.scatterAdd (F := Ideal) scatter_S100000x1_S1600000x1_S1600000x1_1_0_0_1
    (broadcastInDim S100000x1 ![] bcast_S_S100000x1 (constant (F := Ideal) S_ .f32 0x00000000#32))
    (dstIds ei)
    (broadcastInDim S1600000x1 ![] bcast_S_S1600000x1 (constant (F := Ideal) S_ .f32 0x3F800000#32))
    (ix2 p (0 : Fin 1))

end Cert.RefValue

end
-- ==== Proof.RefValue.lean ====
import proofs.«420848_j14422500180474_3_alg».proof.Proof.Gen.ReferenceIdeal.Read
import proofs.«420848_j14422500180474_3_alg».proof.Proof.Spec
import proofs.«420848_j14422500180474_3_alg».proof.Proof.LibSegment
import proofs.«420848_j14422500180474_3_alg».proof.Proof.RefEdge

set_option maxRecDepth 16384

noncomputable section

namespace Cert.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

theorem idx2_eq {n0 n1 : Nat} (f : (⟨2, ![n0, n1]⟩ : Shape).Idx) (a : Fin n0) (b : Fin n1) (h0 : f 0 = a) (h1 : f 1 = b) :
    f = ix2 a b := by
  funext d; match d with | ⟨0, _⟩ => exact h0 | ⟨1, _⟩ => exact h1

theorem idx1_eq {n : Nat} (f : (⟨1, ![n]⟩ : Shape).Idx) (a : Fin n) (h0 : f 0 = a) : f = ix1 a := by
  funext d; match d with | ⟨0, _⟩ => exact h0

variable (x0 : Arr S100000x64 .f32) (x1 : Arr S100000x32 .f32) (x2 x3 x4 : EdgeArr) (x5 x6 : Arr S100000 .i32)
  (x7 : Arr S64x128 .f32) (x8 : Arr S128 .f32) (x9 : Arr S32x128 .f32) (x10 : Arr S128 .f32)
  (x11 : Arr S128x128 .f32) (x12 : Arr S128 .f32) (x13 x14 : Arr S128x128 .f32) (x15 : Arr S128 .f32)
  (x16 x17 : Arr S128x128 .f32) (x18 : Arr S128 .f32) (x19 : Arr S128x128 .f32) (x20 : Arr S128x16 .f32) (x21 : Arr S16 .f32)

theorem sum_ab : val_main_v21 (F := Ideal) x0 x2 x7 x8 = edgeSumR x2 (val_main_v3 (F := Ideal) x0 x7 x8) := rfl

theorem sum_ba : val_main_v51 (F := Ideal) x1 x3 x9 x10 = edgeSumR x3 (val_main_v7 (F := Ideal) x1 x9 x10) := rfl

theorem sum_aa : val_main_v81 (F := Ideal) x0 x4 x7 x8 = edgeSumR x4 (val_main_v3 (F := Ideal) x0 x7 x8) := rfl

theorem cnt_ab (p : Fin 100000) : val_main_v27 (F := Ideal) x2 (ix2 p (0 : Fin 1)) = edgeCntR x2 p := rfl

theorem cnt_ba (p : Fin 100000) : val_main_v57 (F := Ideal) x3 (ix2 p (0 : Fin 1)) = edgeCntR x3 p := rfl

theorem cnt_aa (p : Fin 100000) : val_main_v87 (F := Ideal) x4 (ix2 p (0 : Fin 1)) = edgeCntR x4 p := rfl

theorem lin_a : val_main_v3 (F := Ideal) x0 x7 x8 = Cert.Spec.lin x0 x7 (fun q => x8 (ix1 q)) := by
  funext i
  obtain ⟨p, q, rfl⟩ : ∃ (p : Fin 100000) (q : Fin 128), i = ix2 p q := ⟨i 0, i 1, eq_ix2 i⟩
  rw [Cert.Spec.lin_apply, val_main_v3_apply, val_main_v0_apply, val_main_v2_apply, val_main_v1_apply]
  unfold Cert.Spec.linC
  rw [Ideal.addf_def]
  congr 1
  · refine Finset.sum_congr rfl fun k _ => ?_
    rw [idx2_eq (lidx_main_v0 (ix2 p q) k) p k rfl rfl, idx2_eq (ridx_main_v0 (ix2 p q) k) k q rfl rfl]
  · exact congrArg x8 (idx1_eq _ q rfl)

theorem lin_b : val_main_v7 (F := Ideal) x1 x9 x10 = Cert.Spec.lin x1 x9 (fun q => x10 (ix1 q)) := by
  funext i
  obtain ⟨p, q, rfl⟩ : ∃ (p : Fin 100000) (q : Fin 128), i = ix2 p q := ⟨i 0, i 1, eq_ix2 i⟩
  rw [Cert.Spec.lin_apply, val_main_v7_apply, val_main_v4_apply, val_main_v6_apply, val_main_v5_apply]
  unfold Cert.Spec.linC
  rw [Ideal.addf_def]
  congr 1
  · refine Finset.sum_congr rfl fun k _ => ?_
    rw [idx2_eq (lidx_main_v4 (ix2 p q) k) p k rfl rfl, idx2_eq (ridx_main_v4 (ix2 p q) k) k q rfl rfl]
  · exact congrArg x10 (idx1_eq _ q rfl)

theorem sage_ab : val_main_v37 (F := Ideal) x0 x1 x2 x7 x8 x9 x10 x11 x12 x13
    = Cert.Spec.sage (edgeSumR x2 (val_main_v3 (F := Ideal) x0 x7 x8)) (edgeCntR x2) x11 (fun q => x12 (ix1 q))
        (val_main_v7 (F := Ideal) x1 x9 x10) x13 := by
  funext i
  obtain ⟨p, q, rfl⟩ : ∃ (p : Fin 100000) (q : Fin 128), i = ix2 p q := ⟨i 0, i 1, eq_ix2 i⟩
  rw [Cert.Spec.sage_apply, val_main_v37_apply, val_main_v35_apply, val_main_v32_apply, val_main_v34_apply,
    val_main_v33_apply, val_main_v36_apply]
  unfold Cert.Spec.sageC
  rw [Ideal.addf_def, Ideal.addf_def]
  refine congrArg₂ (· + ·) (congrArg₂ (· + ·) (Finset.sum_congr rfl fun k _ => ?_) ?_) (Finset.sum_congr rfl fun k _ => ?_)
  · rw [val_main_v31_apply, val_main_v30_apply, val_main_v29_apply, val_main_v28_apply, val_main_cst_3_apply,
      idx2_eq (lidx_main_v32 (ix2 p q) k) p k rfl rfl, idx2_eq (ridx_main_v32 (ix2 p q) k) k q rfl rfl,
      idx2_eq (idx_main_v30 (ix2 p k)) p (0 : Fin 1) rfl rfl, sum_ab, cnt_ab]
    rfl
  · exact congrArg x12 (idx1_eq _ q rfl)
  · rw [idx2_eq (lidx_main_v36 (ix2 p q) k) p k rfl rfl, idx2_eq (ridx_main_v36 (ix2 p q) k) k q rfl rfl]

theorem sage_ba : val_main_v67 (F := Ideal) x0 x1 x3 x7 x8 x9 x10 x14 x15 x16
    = Cert.Spec.sage (edgeSumR x3 (val_main_v7 (F := Ideal) x1 x9 x10)) (edgeCntR x3) x14 (fun q => x15 (ix1 q))
        (val_main_v3 (F := Ideal) x0 x7 x8) x16 := by
  funext i
  obtain ⟨p, q, rfl⟩ : ∃ (p : Fin 100000) (q : Fin 128), i = ix2 p q := ⟨i 0, i 1, eq_ix2 i⟩
  rw [Cert.Spec.sage_apply, val_main_v67_apply, val_main_v65_apply, val_main_v62_apply, val_main_v64_apply,
    val_main_v63_apply, val_main_v66_apply]
  unfold Cert.Spec.sageC
  rw [Ideal.addf_def, Ideal.addf_def]
  refine congrArg₂ (· + ·) (congrArg₂ (· + ·) (Finset.sum_congr rfl fun k _ => ?_) ?_) (Finset.sum_congr rfl fun k _ => ?_)
  · rw [val_main_v61_apply, val_main_v60_apply, val_main_v59_apply, val_main_v58_apply, val_main_cst_9_apply,
      idx2_eq (lidx_main_v62 (ix2 p q) k) p k rfl rfl, idx2_eq (ridx_main_v62 (ix2 p q) k) k q rfl rfl,
      idx2_eq (idx_main_v60 (ix2 p k)) p (0 : Fin 1) rfl rfl, sum_ba, cnt_ba]
    rfl
  · exact congrArg x15 (idx1_eq _ q rfl)
  · rw [idx2_eq (lidx_main_v66 (ix2 p q) k) p k rfl rfl, idx2_eq (ridx_main_v66 (ix2 p q) k) k q rfl rfl]

theorem sage_aa : val_main_v97 (F := Ideal) x0 x4 x7 x8 x17 x18 x19
    = Cert.Spec.sage (edgeSumR x4 (val_main_v3 (F := Ideal) x0 x7 x8)) (edgeCntR x4) x17 (fun q => x18 (ix1 q))
        (val_main_v3 (F := Ideal) x0 x7 x8) x19 := by
  funext i
  obtain ⟨p, q, rfl⟩ : ∃ (p : Fin 100000) (q : Fin 128), i = ix2 p q := ⟨i 0, i 1, eq_ix2 i⟩
  rw [Cert.Spec.sage_apply, val_main_v97_apply, val_main_v95_apply, val_main_v92_apply, val_main_v94_apply,
    val_main_v93_apply, val_main_v96_apply]
  unfold Cert.Spec.sageC
  rw [Ideal.addf_def, Ideal.addf_def]
  refine congrArg₂ (· + ·) (congrArg₂ (· + ·) (Finset.sum_congr rfl fun k _ => ?_) ?_) (Finset.sum_congr rfl fun k _ => ?_)
  · rw [val_main_v91_apply, val_main_v90_apply, val_main_v89_apply, val_main_v88_apply, val_main_cst_15_apply,
      idx2_eq (lidx_main_v92 (ix2 p q) k) p k rfl rfl, idx2_eq (ridx_main_v92 (ix2 p q) k) k q rfl rfl,
      idx2_eq (idx_main_v90 (ix2 p k)) p (0 : Fin 1) rfl rfl, sum_aa, cnt_aa]
    rfl
  · exact congrArg x18 (idx1_eq _ q rfl)
  · rw [idx2_eq (lidx_main_v96 (ix2 p q) k) p k rfl rfl, idx2_eq (ridx_main_v96 (ix2 p q) k) k q rfl rfl]

theorem relu_a : val_main_v101 (F := Ideal) x0 x1 x3 x4 x7 x8 x9 x10 x14 x15 x16 x17 x18 x19
    = Cert.Spec.relu2 (val_main_v67 (F := Ideal) x0 x1 x3 x7 x8 x9 x10 x14 x15 x16)
        (val_main_v97 (F := Ideal) x0 x4 x7 x8 x17 x18 x19) := by
  funext i
  rw [val_main_v101_apply, val_main_v100_apply, val_main_v99_apply, val_main_cst_16_apply, val_main_v98_apply,
    val_main_call0_v0_apply, val_main_call0_cst_apply]
  unfold Cert.Spec.relu2
  simp only [Ideal.maximumf_def, Ideal.mulf_def, Ideal.addf_def, Ideal.ofBits_def, Ideal.ofBits_zero_f32, Cert.Spec.half]

theorem relu_b : val_main_v113 (F := Ideal) x0 x1 x2 x7 x8 x9 x10 x11 x12 x13
    = Cert.Spec.relu1 (val_main_v37 (F := Ideal) x0 x1 x2 x7 x8 x9 x10 x11 x12 x13) := by
  funext i
  rw [val_main_v113_apply, val_main_call1_v0_apply, val_main_call1_cst_apply]
  unfold Cert.Spec.relu1
  simp only [Ideal.maximumf_def, Ideal.ofBits_def, Ideal.ofBits_zero_f32]

theorem seg_sum256 (x : Arr S256x128 .f32) (idx : Arr S100000x1 .i32) (upd : Arr S100000x128 .f32) (g : Fin 256) (q : Fin 128) :
    Host.scatterAdd (F := Ideal) (φ := .f32) scatter_S256x128_S100000x1_S100000x128_1_0_0_1 x idx upd (ix2 g q)
      = x (ix2 g q) + ∑ n ∈ Finset.univ.filter (fun n : Fin 100000 => (idx (ix2 n (0 : Fin 1))).toInt = (g.val : ℤ)), upd (ix2 n q) :=
  Cert.LibSegment.scatterAdd_seg2 (N := 100000) (C := 256) (B := 128) scatter_S256x128_S100000x1_S100000x128_1_0_0_1_wf x idx upd g q

theorem seg_cnt256 (x : Arr S256x1 .f32) (idx : Arr S100000x1 .i32) (upd : Arr S100000x1 .f32) (g : Fin 256) :
    Host.scatterAdd (F := Ideal) (φ := .f32) scatter_S256x1_S100000x1_S100000x1_1_0_0_1 x idx upd (ix2 g (0 : Fin 1))
      = x (ix2 g (0 : Fin 1)) + ∑ n ∈ Finset.univ.filter (fun n : Fin 100000 => (idx (ix2 n (0 : Fin 1))).toInt = (g.val : ℤ)), upd (ix2 n (0 : Fin 1)) :=
  Cert.LibSegment.scatterAdd_seg2 (N := 100000) (C := 256) (B := 1) scatter_S256x1_S100000x1_S100000x1_1_0_0_1_wf x idx upd g 0

theorem pool_a : val_main_v112 (F := Ideal) x0 x1 x3 x4 x5 x7 x8 x9 x10 x14 x15 x16 x17 x18 x19
    = Cert.Spec.pool (val_main_v101 (F := Ideal) x0 x1 x3 x4 x7 x8 x9 x10 x14 x15 x16 x17 x18 x19) (fun n => x5 (ix1 n)) := by
  funext j
  obtain ⟨g, q, rfl⟩ : ∃ (g : Fin 256) (q : Fin 128), j = ix2 g q := ⟨j 0, j 1, eq_ix2 j⟩
  have hs : val_main_v104 (F := Ideal) x0 x1 x3 x4 x5 x7 x8 x9 x10 x14 x15 x16 x17 x18 x19 (ix2 g q) = _ :=
    seg_sum256 (val_main_v102 (F := Ideal)) (val_main_v103 (F := Ideal) x5)
      (val_main_v101 (F := Ideal) x0 x1 x3 x4 x7 x8 x9 x10 x14 x15 x16 x17 x18 x19) g q
  have hc : val_main_v108 (F := Ideal) x5 (ix2 g (0 : Fin 1)) = _ :=
    seg_cnt256 (val_main_v106 (F := Ideal)) (val_main_v107 (F := Ideal) x5) (val_main_v105 (F := Ideal)) g
  have e103 : ∀ n : Fin 100000, idx_main_v103 (ix2 n (0 : Fin 1)) = ix1 n := fun n => idx1_eq _ n rfl
  have e107 : ∀ n : Fin 100000, idx_main_v107 (ix2 n (0 : Fin 1)) = ix1 n := fun n => idx1_eq _ n rfl
  rw [Cert.Spec.pool_apply, val_main_v112_apply, val_main_v111_apply, val_main_v110_apply, val_main_v109_apply,
    val_main_cst_20_apply, idx2_eq (idx_main_v111 (ix2 g q)) g (0 : Fin 1) rfl rfl, hs, hc]
  unfold Cert.Spec.poolC
  simp only [val_main_v102_apply, val_main_cst_17_apply, val_main_v106_apply, val_main_cst_19_apply, val_main_v103_apply,
    val_main_v107_apply, val_main_v105_apply, val_main_cst_18_apply, e103, e107, Ideal.ofBits_def, Ideal.ofBits_zero_f32,
    zero_add, Ideal.hostDivf_def, Ideal.maximumf_def, Cert.Spec.one]

theorem pool_b : val_main_v124 (F := Ideal) x0 x1 x2 x6 x7 x8 x9 x10 x11 x12 x13
    = Cert.Spec.pool (val_main_v113 (F := Ideal) x0 x1 x2 x7 x8 x9 x10 x11 x12 x13) (fun n => x6 (ix1 n)) := by
  funext j
  obtain ⟨g, q, rfl⟩ : ∃ (g : Fin 256) (q : Fin 128), j = ix2 g q := ⟨j 0, j 1, eq_ix2 j⟩
  have hs : val_main_v116 (F := Ideal) x0 x1 x2 x6 x7 x8 x9 x10 x11 x12 x13 (ix2 g q) = _ :=
    seg_sum256 (val_main_v114 (F := Ideal)) (val_main_v115 (F := Ideal) x6)
      (val_main_v113 (F := Ideal) x0 x1 x2 x7 x8 x9 x10 x11 x12 x13) g q
  have hc : val_main_v120 (F := Ideal) x6 (ix2 g (0 : Fin 1)) = _ :=
    seg_cnt256 (val_main_v118 (F := Ideal)) (val_main_v119 (F := Ideal) x6) (val_main_v117 (F := Ideal)) g
  have e115 : ∀ n : Fin 100000, idx_main_v115 (ix2 n (0 : Fin 1)) = ix1 n := fun n => idx1_eq _ n rfl
  have e119 : ∀ n : Fin 100000, idx_main_v119 (ix2 n (0 : Fin 1)) = ix1 n := fun n => idx1_eq _ n rfl
  rw [Cert.Spec.pool_apply, val_main_v124_apply, val_main_v123_apply, val_main_v122_apply, val_main_v121_apply,
    val_main_cst_24_apply, idx2_eq (idx_main_v123 (ix2 g q)) g (0 : Fin 1) rfl rfl, hs, hc]
  unfold Cert.Spec.poolC
  simp only [val_main_v114_apply, val_main_cst_21_apply, val_main_v118_apply, val_main_cst_23_apply, val_main_v115_apply,
    val_main_v119_apply, val_main_v117_apply, val_main_cst_22_apply, e115, e119, Ideal.ofBits_def, Ideal.ofBits_zero_f32,
    zero_add, Ideal.hostDivf_def, Ideal.maximumf_def, Cert.Spec.one]

theorem head_eq : val_main_v131 (F := Ideal) x0 x1 x2 x3 x4 x5 x6 x7 x8 x9 x10 x11 x12 x13 x14 x15 x16 x17 x18 x19 x20 x21
    = Cert.Spec.head (val_main_v112 (F := Ideal) x0 x1 x3 x4 x5 x7 x8 x9 x10 x14 x15 x16 x17 x18 x19)
        (val_main_v124 (F := Ideal) x0 x1 x2 x6 x7 x8 x9 x10 x11 x12 x13) x20 (fun o => x21 (ix1 o)) := by
  funext j
  obtain ⟨g, o, rfl⟩ : ∃ (g : Fin 256) (o : Fin 16), j = ix2 g o := ⟨j 0, j 1, eq_ix2 j⟩
  rw [Cert.Spec.head_apply, val_main_v131_apply, val_main_v128_apply, val_main_v130_apply, val_main_v129_apply]
  unfold Cert.Spec.headC
  rw [Ideal.addf_def]
  refine congrArg₂ (· + ·) (Finset.sum_congr rfl fun k _ => ?_) ?_
  · rw [val_main_v127_apply, val_main_v126_apply, val_main_cst_25_apply, val_main_v125_apply,
      idx2_eq (lidx_main_v128 (ix2 g o) k) g k rfl rfl, idx2_eq (ridx_main_v128 (ix2 g o) k) k o rfl rfl]
    rfl
  · exact congrArg x21 (idx1_eq _ o rfl)

theorem ref_val_eq :
    val_main_v131 (F := Ideal) x0 x1 x2 x3 x4 x5 x6 x7 x8 x9 x10 x11 x12 x13 x14 x15 x16 x17 x18 x19 x20 x21
      = Cert.Spec.net x0 x1 x7 (fun q => x8 (ix1 q)) x9 (fun q => x10 (ix1 q))
          (edgeSumR x2) (edgeSumR x3) (edgeSumR x4) (edgeCntR x2) (edgeCntR x3) (edgeCntR x4)
          x11 (fun q => x12 (ix1 q)) x13 x14 (fun q => x15 (ix1 q)) x16 x17 (fun q => x18 (ix1 q)) x19
          (fun n => x5 (ix1 n)) (fun n => x6 (ix1 n)) x20 (fun o => x21 (ix1 o)) := by
  rw [head_eq, pool_a, pool_b, relu_a, relu_b, sage_ab, sage_ba, sage_aa, lin_a, lin_b]
  rfl

theorem ref_eq (m : (ℓ : Loc nD τ sig) → Buf (Elt Ideal) ℓ) (c : Dev nD) :
    Cert.ReferenceIdeal.Value.res_out0 (F := Ideal) m c
      = Cert.Spec.net (m ((c.tc : Thread nD τ).loc main_arg0))
          (m ((c.tc : Thread nD τ).loc main_arg1))
          (m ((c.tc : Thread nD τ).loc main_arg7))
          (fun q => m ((c.tc : Thread nD τ).loc main_arg8) (ix1 q))
          (m ((c.tc : Thread nD τ).loc main_arg9))
          (fun q => m ((c.tc : Thread nD τ).loc main_arg10) (ix1 q))
          (edgeSumR (m ((c.tc : Thread nD τ).loc main_arg2)))
          (edgeSumR (m ((c.tc : Thread nD τ).loc main_arg3)))
          (edgeSumR (m ((c.tc : Thread nD τ).loc main_arg4)))
          (edgeCntR (m ((c.tc : Thread nD τ).loc main_arg2)))
          (edgeCntR (m ((c.tc : Thread nD τ).loc main_arg3)))
          (edgeCntR (m ((c.tc : Thread nD τ).loc main_arg4)))
          (m ((c.tc : Thread nD τ).loc main_arg11))
          (fun q => m ((c.tc : Thread nD τ).loc main_arg12) (ix1 q))
          (m ((c.tc : Thread nD τ).loc main_arg13))
          (m ((c.tc : Thread nD τ).loc main_arg14))
          (fun q => m ((c.tc : Thread nD τ).loc main_arg15) (ix1 q))
          (m ((c.tc : Thread nD τ).loc main_arg16))
          (m ((c.tc : Thread nD τ).loc main_arg17))
          (fun q => m ((c.tc : Thread nD τ).loc main_arg18) (ix1 q))
          (m ((c.tc : Thread nD τ).loc main_arg19))
          (fun n => m ((c.tc : Thread nD τ).loc main_arg5) (ix1 n))
          (fun n => m ((c.tc : Thread nD τ).loc main_arg6) (ix1 n))
          (m ((c.tc : Thread nD τ).loc main_arg20))
          (fun o => m ((c.tc : Thread nD τ).loc main_arg21) (ix1 o)) :=
  (val_main_v131_eq (F := Ideal) m c).trans (ref_val_eq _ _ _ _ _ _ _ _ _ _ _ _ _ _ _ _ _ _ _ _ _ _)

end Cert.RefValue

end
-- ==== Proof.Bridge.lean ====
import proofs.«420848_j14422500180474_3_alg».proof.Proof.KI.HostVal
import proofs.«420848_j14422500180474_3_alg».proof.Proof.RefEdge

set_option maxRecDepth 16384

noncomputable section

namespace Cert.Bridge

open Idealize.ShloMosaic Idealize.ShloMosaic.ValueIdx

theorem srcIds_eq (ei : Cert.RefValue.EdgeArr) : Cert.KernelIdeal.Hand.srcIds ei = Cert.RefValue.srcIds ei := rfl

theorem dstIds_eq (ei : Cert.RefValue.EdgeArr) : Cert.KernelIdeal.Hand.dstIds ei = Cert.RefValue.dstIds ei := rfl

theorem gather_eq : Cert.KernelIdeal.gather_S100000x128_S1600000x1_S1600000x128_1_0_n_n_0_1_1128
    = Cert.ReferenceIdeal.gather_S100000x128_S1600000x1_S1600000x128_1_0_n_n_0_1_1128 := rfl

theorem scatter_rows_eq : Cert.KernelIdeal.scatter_S100000x128_S1600000x1_S1600000x128_1_0_0_1
    = Cert.ReferenceIdeal.scatter_S100000x128_S1600000x1_S1600000x128_1_0_0_1 := rfl

theorem scatter_cnt_eq : Cert.KernelIdeal.scatter_S100000x1_S1600000x1_S1600000x1_1_0_0_1
    = Cert.ReferenceIdeal.scatter_S100000x1_S1600000x1_S1600000x1_1_0_0_1 := rfl

theorem extf_id {s : Shape} (x : FVec Ideal s .bf16) (h : FTy.bf16.bits < FTy.f32.bits) :
    (extf .f32 x h : FVec Ideal s .f32) = x := rfl

theorem edgeSum_eq (ei : Cert.RefValue.EdgeArr) (h : Cert.Spec.Mat 100000 128) :
    Cert.KernelIdeal.Hand.edgeSumK (F := Ideal) ei h = Cert.RefValue.edgeSumR ei h := by
  unfold Cert.KernelIdeal.Hand.edgeSumK Cert.RefValue.edgeSumR
  rw [extf_id, srcIds_eq, dstIds_eq, gather_eq, scatter_rows_eq]

theorem edgeCnt_eq (ei : Cert.RefValue.EdgeArr) (p : Fin 100000) :
    Cert.KernelIdeal.Hand.edgeCntK (F := Ideal) ei (ix2 p (0 : Fin 1)) = Cert.RefValue.edgeCntR ei p := by
  unfold Cert.KernelIdeal.Hand.edgeCntK Cert.RefValue.edgeCntR
  rw [dstIds_eq, scatter_cnt_eq]

theorem net_eq (xa : Cert.Spec.Mat 100000 64) (xb : Cert.Spec.Mat 100000 32)
    (wa : Cert.Spec.Mat 64 128) (ba : Fin 128 → EReal) (wb : Cert.Spec.Mat 32 128) (bb : Fin 128 → EReal)
    (eab eba eaa : Cert.RefValue.EdgeArr)
    (wlab : Cert.Spec.Mat 128 128) (blab : Fin 128 → EReal) (wrab : Cert.Spec.Mat 128 128)
    (wlba : Cert.Spec.Mat 128 128) (blba : Fin 128 → EReal) (wrba : Cert.Spec.Mat 128 128)
    (wlaa : Cert.Spec.Mat 128 128) (blaa : Fin 128 → EReal) (wraa : Cert.Spec.Mat 128 128)
    (batcha batchb : Fin 100000 → BitVec 32) (wout : Cert.Spec.Mat 128 16) (bout : Fin 16 → EReal) :
    Cert.Spec.net xa xb wa ba wb bb
        (fun h => Cert.KernelIdeal.Hand.edgeSumK (F := Ideal) eab h)
        (fun h => Cert.KernelIdeal.Hand.edgeSumK (F := Ideal) eba h)
        (fun h => Cert.KernelIdeal.Hand.edgeSumK (F := Ideal) eaa h)
        (fun p => Cert.KernelIdeal.Hand.edgeCntK (F := Ideal) eab (ix2 p (0 : Fin 1)))
        (fun p => Cert.KernelIdeal.Hand.edgeCntK (F := Ideal) eba (ix2 p (0 : Fin 1)))
        (fun p => Cert.KernelIdeal.Hand.edgeCntK (F := Ideal) eaa (ix2 p (0 : Fin 1)))
        wlab blab wrab wlba blba wrba wlaa blaa wraa batcha batchb wout bout
      = Cert.Spec.net xa xb wa ba wb bb
        (Cert.RefValue.edgeSumR eab) (Cert.RefValue.edgeSumR eba) (Cert.RefValue.edgeSumR eaa)
        (Cert.RefValue.edgeCntR eab) (Cert.RefValue.edgeCntR eba) (Cert.RefValue.edgeCntR eaa)
        wlab blab wrab wlba blba wrba wlaa blaa wraa batcha batchb wout bout := by
  have es : ∀ ei : Cert.RefValue.EdgeArr,
      (fun h : Cert.Spec.Mat 100000 128 => (Cert.KernelIdeal.Hand.edgeSumK (F := Ideal) ei h : Cert.Spec.Mat 100000 128))
        = Cert.RefValue.edgeSumR ei := fun ei => funext (edgeSum_eq ei)
  have ec : ∀ ei : Cert.RefValue.EdgeArr,
      (fun p : Fin 100000 => (Cert.KernelIdeal.Hand.edgeCntK (F := Ideal) ei (ix2 p (0 : Fin 1)) : EReal))
        = Cert.RefValue.edgeCntR ei := fun ei => funext (edgeCnt_eq ei)
  rw [es eab, es eba, es eaa, ec eab, ec eba, ec eaa]

end Cert.Bridge

end
-- ==== Proof.lean ====
import proofs.«420848_j14422500180474_3_alg».proof.Defs
import proofs.«420848_j14422500180474_3_alg».proof.Proof.Gen.Kernel
import proofs.«420848_j14422500180474_3_alg».proof.Proof.Gen.KernelIdeal
import proofs.«420848_j14422500180474_3_alg».proof.Proof.Gen.ReferenceIdeal
import proofs.«420848_j14422500180474_3_alg».proof.Proof.Gen.Pre_finite_inputs
import proofs.«420848_j14422500180474_3_alg».proof.Proof.Gen.ReferenceIdeal.Run
import proofs.«420848_j14422500180474_3_alg».proof.Proof.K.Frame
import proofs.«420848_j14422500180474_3_alg».proof.Proof.KI.Frame
import proofs.«420848_j14422500180474_3_alg».proof.Proof.KI.Value
import proofs.«420848_j14422500180474_3_alg».proof.Proof.RefValue
import proofs.«420848_j14422500180474_3_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

set_option maxHeartbeats 2000000 in
/-- The frames, the two narrowing round trips, and the kernel's network of the arguments equal to the reference's. -/
theorem claim : Cert.Claim := ⟨Cert.Kernel.Gen.facts, Cert.KernelIdeal.Gen.facts, Cert.ReferenceIdeal.Gen.facts, Cert.Pre_finite_inputs.Gen.facts,
  fun m ρ _ => (θ_run Cert.Kernel.defs _ _).mono (fun _ h c => have k := (h c).2
    ⟨k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩) (Cert.Kernel.Hand.run_result (F := Bits) m ρ),
  fun m ρ _ => (θ_run Cert.KernelIdeal.defs _ _).mono (fun _ h c => have k := (h c).2
    ⟨k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩) (Cert.KernelIdeal.Hand.run_result (F := Ideal) m ρ),
  fun m ρ _ => (θ_run Cert.ReferenceIdeal.defs _ _).mono (fun _ h c => (h c).2) (Cert.ReferenceIdeal.Value.run (F := Ideal) m ρ),
  ⟨IdealRules.truncf_extf.statement _ .f32 .bf16, IdealRules.truncf_extf.statement _ .f32 .bf16⟩,
  fun m ρ m' ρ' _ hagree =>
    ⟨fun c => Cert.KernelIdeal.Hand.W10 m ρ c (Proc.devRef .tc Cert.KernelIdeal.main_v75),
     (θ_run Cert.KernelIdeal.defs _ _).mono (fun _ h c => have k := (h c).2
       ⟨(h c).1, k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩) (Cert.KernelIdeal.Hand.run_result (F := Ideal) m ρ),
     (θ_run Cert.ReferenceIdeal.defs _ _).mono
       (fun _ h c => ⟨(h c).1.trans (by
            obtain ⟨a0, a1, a2, a3, a4, a5, a6, a7, a8, a9, a10, a11, a12, a13, a14, a15, a16, a17, a18, a19, a20, a21⟩ := hagree c
            show Cert.ReferenceIdeal.Value.res_out0 (F := Ideal) m' c = Cert.KernelIdeal.Hand.W10 m ρ c (Proc.devRef .tc Cert.KernelIdeal.main_v75)
            rw [Cert.RefValue.ref_eq m' c, Cert.KernelIdeal.Hand.W10_v75 m ρ c, a0, a1, a2, a3, a4, a5, a6, a7, a8, a9, a10, a11, a12, a13, a14, a15, a16, a17, a18, a19, a20, a21]
            exact (Cert.Bridge.net_eq _ _ _ _ _ _ _ _ _ _ _ _ _ _ _ _ _ _ _ _ _ _).symm), (h c).2⟩)
       (Cert.ReferenceIdeal.Value.run (F := Ideal) m' ρ')⟩⟩

end Cert.Proof

end
